-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S100000 : Shape := ⟨1, ![100000]⟩
abbrev S8x8 : Shape := ⟨2, ![8, 8]⟩
abbrev S8 : Shape := ⟨1, ![8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x4 : Shape := ⟨2, ![64, 4]⟩
abbrev S4 : Shape := ⟨1, ![4]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg9 : FVec F S32x64 .f32) (main_arg10 : FVec F S64 .f32) (main_arg11 : FVec F S64x4 .f32) (main_arg12 : FVec F S4 .f32) (main_v33 : IVec S_ 1) : IVec S_ 1 :=
  let main_v34 : FVec F S32x64 .f32 := Host.absf main_arg9
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x4 .f32 := Host.absf main_arg11
  let main_cst_16 : FVec F S_ .f32 := constant S_ .f32 0x7F800000#32
  let main_v45 : FVec F S64x4 .f32 := broadcastInDim S64x4 ![] bcast_S_S64x4 main_cst_16
  let main_v46 : IVec S64x4 1 := cmpf .olt main_v44 main_v45
  let main_c_17 : IVec S_ 1 := constantI S_ 1 1#1
  let main_v47 : IVec S_ 1 := (fun x v => Host.reduce IntOp.andi x v reducesTo_S64x4_S_d0_1 h_S_) main_v46 main_c_17
  let main_v48 : IVec S_ 1 := andi main_v43 main_v47
  let main_v49 : FVec F S4 .f32 := Host.absf main_arg12
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg6 : FVec F S16 .f32) (main_arg7 : FVec F S16x32 .f32) (main_arg8 : FVec F S32 .f32) (main_arg9 : FVec F S32x64 .f32) (main_arg10 : FVec F S64 .f32) (main_arg11 : FVec F S64x4 .f32) (main_arg12 : FVec F S4 .f32) (main_v13 : IVec S_ 1) (main_v16 : IVec S8x16 1) : IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x32 .f32 := Host.absf main_arg7
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x8 .f32) (main_arg1 : IVec S2x1600000 32) (main_arg2 : IVec S100000 32) (main_arg3 : FVec F S8x8 .f32) (main_arg4 : FVec F S8 .f32) (main_arg5 : FVec F S8x16 .f32) (main_arg6 : FVec F S16 .f32) (main_arg7 : FVec F S16x32 .f32) (main_arg8 : FVec F S32 .f32) (main_arg9 : FVec F S32x64 .f32) (main_arg10 : FVec F S64 .f32) (main_arg11 : FVec F S64x4 .f32) (main_arg12 : FVec F S4 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x8 .f32 := Host.absf main_arg3
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8 .f32 := Host.absf main_arg4
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x16 .f32 := Host.absf main_arg5
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg6 main_arg7 main_arg8 main_arg9 main_arg10 main_arg11 main_arg12 main_v13 main_v16
-- ==== Kernel.lean ====
abbrev S100000x8 : Shape := ⟨2, ![100000, 8]⟩
abbrev S2x1600000 : Shape := ⟨2, ![2, 1600000]⟩
abbrev S100000 : Shape := ⟨1, ![100000]⟩
abbrev S8x8 : Shape := ⟨2, ![8, 8]⟩
abbrev S8 : Shape := ⟨1, ![8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x4 : Shape := ⟨2, ![64, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S5000x8 : Shape := ⟨2, ![5000, 8]⟩
abbrev S1600000x8 : Shape := ⟨2, ![1600000, 8]⟩
abbrev S100000x1 : Shape := ⟨2, ![100000, 1]⟩
abbrev S1x8 : Shape := ⟨2, ![1, 8]⟩
abbrev S5000x1 : Shape := ⟨2, ![5000, 1]⟩
abbrev S100000x16 : Shape := ⟨2, ![100000, 16]⟩
abbrev S5000x16 : Shape := ⟨2, ![5000, 16]⟩
abbrev S1600000x16 : Shape := ⟨2, ![1600000, 16]⟩
abbrev S1x16 : Shape := ⟨2, ![1, 16]⟩
abbrev S100000x32 : Shape := ⟨2, ![100000, 32]⟩
abbrev S5000x32 : Shape := ⟨2, ![5000, 32]⟩
abbrev S1600000x32 : Shape := ⟨2, ![1600000, 32]⟩
abbrev S1x32 : Shape := ⟨2, ![1, 32]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S64x1 : Shape := ⟨2, ![64, 1]⟩
abbrev S1x4 : Shape := ⟨2, ![1, 4]⟩
abbrev S64x64 : Shape := ⟨2, ![64, 64]⟩

abbrev nBuf : Space → Nat
  | .hbm => 202
  | .vmem => 65
  | .smem => 0
  | _ => 0

abbrev hbmTy0_0 (i : Nat) : BufTy := match i % 128 with
  | 0 => ⟨S100000x8, .f32⟩
  | 1 => ⟨S2x1600000, .i32⟩
  | 2 => ⟨S100000, .i32⟩
  | 3 => ⟨S8x8, .f32⟩
  | 4 => ⟨S8, .f32⟩
  | 5 => ⟨S8x16, .f32⟩
  | 6 => ⟨S16, .f32⟩
  | 7 => ⟨S16x32, .f32⟩
  | 8 => ⟨S32, .f32⟩
  | 9 => ⟨S32x64, .f32⟩
  | 10 => ⟨S64, .f32⟩
  | 11 => ⟨S64x4, .f32⟩
  | 12 => ⟨S4, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x8, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x8, .f32⟩
  | 59 => ⟨S1600000x1, .f32⟩
  | 60 => ⟨S1600000x8, .f32⟩
  | 61 => ⟨S1600000x8, .f32⟩
  | 62 => ⟨S_, .f32⟩
  | 63 => ⟨S100000x8, .f32⟩
  | 64 => ⟨S1600000x1, .i32⟩
  | 65 => ⟨S100000x8, .f32⟩
  | 66 => ⟨S100000x1, .f32⟩
  | 67 => ⟨S1x8, .f32⟩
  | 68 => ⟨S100000x8, .f32⟩
  | 69 => ⟨S100000x16, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x16, .f32⟩
  | 98 => ⟨S1600000x1, .f32⟩
  | 99 => ⟨S1600000x16, .f32⟩
  | 100 => ⟨S1600000x16, .f32⟩
  | 101 => ⟨S_, .f32⟩
  | 102 => ⟨S100000x16, .f32⟩
  | 103 => ⟨S1600000x1, .i32⟩
  | 104 => ⟨S100000x16, .f32⟩
  | 105 => ⟨S100000x1, .f32⟩
  | 106 => ⟨S1x16, .f32⟩
  | 107 => ⟨S100000x16, .f32⟩
  | 108 => ⟨S100000x32, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000, .f32⟩
  | 127 => ⟨S1600000, .f32⟩
  | _ => ⟨S100000x8, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x32, .f32⟩
  | 9 => ⟨S1600000x1, .f32⟩
  | 10 => ⟨S1600000x32, .f32⟩
  | 11 => ⟨S1600000x32, .f32⟩
  | 12 => ⟨S_, .f32⟩
  | 13 => ⟨S100000x32, .f32⟩
  | 14 => ⟨S1600000x1, .i32⟩
  | 15 => ⟨S100000x32, .f32⟩
  | 16 => ⟨S100000x1, .f32⟩
  | 17 => ⟨S1x32, .f32⟩
  | 18 => ⟨S100000x32, .f32⟩
  | 19 => ⟨S100000x64, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S1600000x1, .f32⟩
  | 49 => ⟨S1600000x64, .f32⟩
  | 50 => ⟨S1600000x64, .f32⟩
  | 51 => ⟨S_, .f32⟩
  | 52 => ⟨S100000x64, .f32⟩
  | 53 => ⟨S1600000x1, .i32⟩
  | 54 => ⟨S100000x64, .f32⟩
  | 55 => ⟨S100000x1, .f32⟩
  | 56 => ⟨S1x64, .f32⟩
  | 57 => ⟨S100000x64, .f32⟩
  | 58 => ⟨S_, .f32⟩
  | 59 => ⟨S100000, .f32⟩
  | 60 => ⟨S_, .f32⟩
  | 61 => ⟨S64, .f32⟩
  | 62 => ⟨S100000x1, .i32⟩
  | 63 => ⟨S64, .f32⟩
  | 64 => ⟨S_, .f32⟩
  | 65 => ⟨S64, .f32⟩
  | 66 => ⟨S64, .f32⟩
  | 67 => ⟨S_, .f32⟩
  | 68 => ⟨S64, .f32⟩
  | 69 => ⟨S64, .f32⟩
  | 70 => ⟨S64x1, .f32⟩
  | 71 => ⟨S100000x1, .i32⟩
  | 72 => ⟨S1x4, .f32⟩
  | 73 => ⟨S64x4, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S5000x8, .f32⟩
  | .local _ .vmem, ⟨1, _⟩ => ⟨S5000x8, .f32⟩
  | .local _ .vmem, ⟨2, _⟩ => ⟨S8x8, .f32⟩
  | .local _ .vmem, ⟨3, _⟩ => ⟨S5000x8, .f32⟩
  | .local _ .vmem, ⟨4, _⟩ => ⟨S5000x8, .f32⟩
  | .local _ .vmem, ⟨5, _⟩ => ⟨S5000x8, .f32⟩
  | .local _ .vmem, ⟨6, _⟩ => ⟨S5000x8, .f32⟩
  | .local _ .vmem, ⟨7, _⟩ => ⟨S5000x8, .f32⟩
  | .local _ .vmem, ⟨8, _⟩ => ⟨S5000x8, .f32⟩
  | .local _ .vmem, ⟨9, _⟩ => ⟨S5000x1, .f32⟩
  | .local _ .vmem, ⟨10, _⟩ => ⟨S5000x1, .f32⟩
  | .local _ .vmem, ⟨11, _⟩ => ⟨S1x8, .f32⟩
  | .local _ .vmem, ⟨12, _⟩ => ⟨S5000x8, .f32⟩
  | .local _ .vmem, ⟨13, _⟩ => ⟨S5000x8, .f32⟩
  | .local _ .vmem, ⟨14, _⟩ => ⟨S5000x8, .f32⟩
  | .local _ .vmem, ⟨15, _⟩ => ⟨S5000x8, .f32⟩
  | .local _ .vmem, ⟨16, _⟩ => ⟨S8x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x1, .f32⟩
  | .local _ .vmem, ⟨24, _⟩ => ⟨S5000x1, .f32⟩
  | .local _ .vmem, ⟨25, _⟩ => ⟨S1x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S5000x16, .f32⟩
  | .local _ .vmem, ⟨30, _⟩ => ⟨S16x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x1, .f32⟩
  | .local _ .vmem, ⟨38, _⟩ => ⟨S5000x1, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S32x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x1, .f32⟩
  | .local _ .vmem, ⟨52, _⟩ => ⟨S5000x1, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S5000x1, .i32⟩
  | .local _ .vmem, ⟨57, _⟩ => ⟨S5000x1, .i32⟩
  | .local _ .vmem, ⟨58, _⟩ => ⟨S5000x64, .f32⟩
  | .local _ .vmem, ⟨59, _⟩ => ⟨S5000x64, .f32⟩
  | .local _ .vmem, ⟨60, _⟩ => ⟨S64x1, .f32⟩
  | .local _ .vmem, ⟨61, _⟩ => ⟨S64x4, .f32⟩
  | .local _ .vmem, ⟨62, _⟩ => ⟨S1x4, .f32⟩
  | .local _ .vmem, ⟨63, _⟩ => ⟨S64x4, .f32⟩
  | .local _ .vmem, ⟨64, _⟩ => ⟨S64x64, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_c_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_20 : Ref sig .tc := ⟨.hbm, 128, rfl⟩
abbrev main_v93 : Ref sig .tc := ⟨.hbm, 129, rfl⟩
abbrev main_v94 : Ref sig .tc := ⟨.hbm, 130, rfl⟩
abbrev main_c_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_c_23 : Ref sig .tc := ⟨.hbm, 148, rfl⟩
abbrev main_v110 : Ref sig .tc := ⟨.hbm, 149, rfl⟩
abbrev main_v111 : Ref sig .tc := ⟨.hbm, 150, rfl⟩
abbrev main_c_24 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_25 : Ref sig .tc := ⟨.hbm, 157, rfl⟩
abbrev main_v117 : Ref sig .tc := ⟨.hbm, 158, rfl⟩
abbrev main_v118 : Ref sig .tc := ⟨.hbm, 159, rfl⟩
abbrev main_c_26 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_27 : Ref sig .tc := ⟨.hbm, 167, rfl⟩
abbrev main_v125 : Ref sig .tc := ⟨.hbm, 168, rfl⟩
abbrev main_v126 : Ref sig .tc := ⟨.hbm, 169, rfl⟩
abbrev main_c_28 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_29 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_30 : Ref sig .tc := ⟨.hbm, 186, rfl⟩
abbrev main_v141 : Ref sig .tc := ⟨.hbm, 187, rfl⟩
abbrev main_cst_31 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_32 : Ref sig .tc := ⟨.hbm, 192, rfl⟩
abbrev main_v145 : Ref sig .tc := ⟨.hbm, 193, rfl⟩
abbrev main_v146 : Ref sig .tc := ⟨.hbm, 194, rfl⟩
abbrev main_cst_33 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg5_0 : Ref sig .tc := ⟨.vmem, 63, rfl⟩
abbrev cc8_scratch0 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62
abbrev cc8_sem5_0 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def k8_cond2 (i : grid8.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x1 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x4 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x4 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x4 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x8_S8x8_0_0 : ∀ a, (![0, 0] : Fin 2 → Nat) a + S8x8.size a ≤ S8x8.size a
  h_S8x8 : 0 < S8x8.numel
  bcast_S1600000x1_S1600000x8_0_1 : S1600000x1.BroadcastsInDim S1600000x8 (![0, 1] : Fin 2 → Fin S1600000x8.rank)
  bcast_S_S100000x8 : S_.BroadcastsInDim S100000x8 (![] : Fin 0 → Fin S100000x8.rank)
  shapeCasts_S100000_S100000x1 : S100000.ShapeCasts S100000x1
  shapeCasts_S8_S1x8 : S8.ShapeCasts S1x8
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x8 : S5000x1.Broadcasts S5000x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S8x16_S8x16_0_0 : ∀ a, (![0, 0] : Fin 2 → Nat) a + S8x16.size a ≤ S8x16.size a
  h_S8x16 : 0 < S8x16.numel
  inb_S5000x16_S5000x16_0_0 : ∀ a, (![0, 0] : Fin 2 → Nat) a + S5000x16.size a ≤ S5000x16.size a
  h_S5000x16 : 0 < S5000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S16_S1x16 : S16.ShapeCasts S1x16
  broadcasts_S5000x1_S5000x16 : S5000x1.Broadcasts S5000x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  broadcasts_S5000x1_S5000x32 : S5000x1.Broadcasts S5000x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  broadcasts_S5000x1_S5000x64 : S5000x1.Broadcasts S5000x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64 : S_.BroadcastsInDim S64 (![] : Fin 0 → Fin S64.rank)
  bcast_S100000_S100000x1_0 : S100000.BroadcastsInDim S100000x1 (![0] : Fin 1 → Fin S100000x1.rank)
  shapeCasts_S64_S64x1 : S64.ShapeCasts S64x1
  shapeCasts_S4_S1x4 : S4.ShapeCasts S1x4
  inb_S64x64_S64x64_0_0 : ∀ a, (![0, 0] : Fin 2 → Nat) a + S64x64.size a ≤ S64x64.size a
  h_S64x64 : 0 < S64x64.numel
  shapeCasts_S64x64_S64x64 : S64x64.ShapeCasts S64x64
  iota_S5000x64_d1_w32 : S5000x64.Iotas .tc 32 [1]
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S64x4 : S1x4.Broadcasts S64x4
  scatter_S100000_S1600000x1_S1600000_n_0_0_1_wf : ScatterDims.WF S100000 S1600000x1 S1600000 [] [0] [0] 1
  dot_S5000x8_S8x8_S5000x8_1_0_0_1_n_n_wf : DotDims.WF S5000x8 S8x8 S5000x8 [1] [0] [0] [1] [] []
  gather_S100000_S1600000x1_S1600000_n_0_n_n_0_1_1_wf : GatherDims.WF S100000 S1600000x1 S1600000 [] [0] [] [0] [] 1 ![1]
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S5000x8_S8x16_S5000x16_1_0_0_1_n_n_wf : DotDims.WF S5000x8 S8x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x32_S5000x32_1_0_0_1_n_n_wf : DotDims.WF S5000x16 S16x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64_S100000x1_S100000_n_0_0_1_wf : ScatterDims.WF S64 S100000x1 S100000 [] [0] [0] 1
  dot_S5000x64_S5000x64_S64x64_0_0_1_1_n_n_wf : DotDims.WF S5000x64 S5000x64 S64x64 [0] [0] [1] [1] [] []
  dot_S64x64_S64x4_S64x4_1_0_0_1_n_n_wf : DotDims.WF S64x64 S64x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S8x8.size a
  hwx0_1 : ∀ i : grid0.Coords, EltTy.bits .f32 = 32 ∨ (Rect.block (s := S8x8) S8x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x8.size a ≤ S100000x8.size a
  hwx0_2 : ∀ i : grid0.Coords, EltTy.bits .f32 = 32 ∨ (Rect.block (s := S100000x8) S5000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S100000x8.size a
  hwx1_0 : ∀ i : grid1.Coords, EltTy.bits .f32 = 32 ∨ (Rect.block (s := S100000x8) S5000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x8.size a ≤ S100000x8.size a
  hwx1_1 : ∀ i : grid1.Coords, EltTy.bits .f32 = 32 ∨ (Rect.block (s := S100000x8) S5000x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x8.size a ≤ S100000x8.size a
  hwx1_4 : ∀ i : grid1.Coords, EltTy.bits .f32 = 32 ∨ (Rect.block (s := S100000x8) S5000x8.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S100000x8.size a
  hwx2_0 : ∀ i : grid2.Coords, EltTy.bits .f32 = 32 ∨ (Rect.block (s := S100000x8) S5000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x16.size a ≤ S8x16.size a
  hwx2_1 : ∀ i : grid2.Coords, EltTy.bits .f32 = 32 ∨ (Rect.block (s := S8x16) S8x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S100000x16.size a
  hwx3_4 : ∀ i : grid3.Coords, EltTy.bits .f32 = 32 ∨ (Rect.block (s := S100000x16) S5000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S100000x16.size a
  hwx4_0 : ∀ i : grid4.Coords, EltTy.bits .f32 = 32 ∨ (Rect.block (s := S100000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x32.size a ≤ S16x32.size a
  hwx4_1 : ∀ i : grid4.Coords, EltTy.bits .f32 = 32 ∨ (Rect.block (s := S16x32) S16x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S100000x32.size a
  hwx4_2 : ∀ i : grid4.Coords, EltTy.bits .f32 = 32 ∨ (Rect.block (s := S100000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S100000x32.size a
  hwx5_4 : ∀ i : grid5.Coords, EltTy.bits .f32 = 32 ∨ (Rect.block (s := S100000x32) S5000x32.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x64.size a ≤ S32x64.size a
  hwx6_1 : ∀ i : grid6.Coords, EltTy.bits .f32 = 32 ∨ (Rect.block (s := S32x64) S32x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S100000x64.size a
  hwx7_4 : ∀ i : grid7.Coords, EltTy.bits .f32 = 32 ∨ (Rect.block (s := S100000x64) S5000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x1.size a ≤ S100000x1.size a
  hwx8_0 : ∀ i : grid8.Coords, EltTy.bits .i32 = 32 ∨ (Rect.block (s := S100000x1) S5000x1.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x1.size a ≤ S64x1.size a
  hwx8_2 : ∀ i : grid8.Coords, EltTy.bits .f32 = 32 ∨ (Rect.block (s := S64x1) S64x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x4.size a ≤ S64x4.size a
  hwx8_3 : ∀ i : grid8.Coords, EltTy.bits .f32 = 32 ∨ (Rect.block (s := S64x4) S64x4.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x4.size a ≤ S1x4.size a
  hwx8_4 : ∀ i : grid8.Coords, EltTy.bits .f32 = 32 ∨ (Rect.block (s := S1x4) S1x4.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x4.size a ≤ S64x4.size a
  hwx8_5 : ∀ i : grid8.Coords, EltTy.bits .f32 = 32 ∨ (Rect.block (s := S64x4) S64x4.size (cc8_transform_5 i) (hinb8_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x8_S8x8_S5000x8_1_0_0_1_n_n : DotDims S5000x8 S8x8 S5000x8 where
  lhsContracting := [1]
  rhsContracting := [0]
  lhsNonContracting := [0]
  rhsNonContracting := [1]
  lhsBatch := []
  rhsBatch := []
  wf := dot_S5000x8_S8x8_S5000x8_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S5000x8_S8x16_S5000x16_1_0_0_1_n_n : DotDims S5000x8 S8x16 S5000x16 where
  lhsContracting := [1]
  rhsContracting := [0]
  lhsNonContracting := [0]
  rhsNonContracting := [1]
  lhsBatch := []
  rhsBatch := []
  wf := dot_S5000x8_S8x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x4_S64x4_1_0_0_1_n_n : DotDims S64x64 S64x4 S64x4 where
  lhsContracting := [1]
  rhsContracting := [0]
  lhsNonContracting := [0]
  rhsNonContracting := [1]
  lhsBatch := []
  rhsBatch := []
  wf := dot_S64x64_S64x4_S64x4_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S8x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v76) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S16x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v105) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v106) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v107) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v108) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v108) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S32x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v109) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v137) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v109) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v138) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v139) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v140) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v150) S5000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v140) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v149) S64x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg11) S64x4.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v151) S1x4.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v152) S64x4.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev idle8 : Fin 6 → grid8.Coords → Bool := fun | 0 => fun _ => false | 1 => fun _ => false | 2 => fun _ => false | 3 => fun _ => false | 4 => fun _ => false | 5 => fun i => !(k8_cond2 i == 1#1) | ⟨_ + 6, h⟩ => absurd h (Nat.not_lt.2 (Nat.le_add_left _ _))

class Facts : Prop extends Facts₀ where

variable [Facts]
-- ==== ReferenceIdeal.lean ====
abbrev S100000x8 : Shape := ⟨2, ![100000, 8]⟩
abbrev S2x1600000 : Shape := ⟨2, ![2, 1600000]⟩
abbrev S100000 : Shape := ⟨1, ![100000]⟩
abbrev S8x8 : Shape := ⟨2, ![8, 8]⟩
abbrev S8 : Shape := ⟨1, ![8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x4 : Shape := ⟨2, ![64, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S100000x1 : Shape := ⟨2, ![100000, 1]⟩
abbrev S1x8 : Shape := ⟨2, ![1, 8]⟩
abbrev S100000x16 : Shape := ⟨2, ![100000, 16]⟩
abbrev S1600000x16 : Shape := ⟨2, ![1600000, 16]⟩
abbrev S1x16 : Shape := ⟨2, ![1, 16]⟩
abbrev S100000x32 : Shape := ⟨2, ![100000, 32]⟩
abbrev S1600000x32 : Shape := ⟨2, ![1600000, 32]⟩
abbrev S1x32 : Shape := ⟨2, ![1, 32]⟩
abbrev S100000x64 : Shape := ⟨2, ![100000, 64]⟩
abbrev S1600000x64 : Shape := ⟨2, ![1600000, 64]⟩
abbrev S1x64 : Shape := ⟨2, ![1, 64]⟩
abbrev S64x64 : Shape := ⟨2, ![64, 64]⟩
abbrev S64x1 : Shape := ⟨2, ![64, 1]⟩
abbrev S1x4 : Shape := ⟨2, ![1, 4]⟩

abbrev nBuf : Space → Nat
  | .hbm => 225
  | .vmem => 0
  | .smem => 0
  | _ => 0

abbrev hbmTy0_0 (i : Nat) : BufTy := match i % 128 with
  | 0 => ⟨S100000x8, .f32⟩
  | 1 => ⟨S2x1600000, .i32⟩
  | 2 => ⟨S100000, .i32⟩
  | 3 => ⟨S8x8, .f32⟩
  | 4 => ⟨S8, .f32⟩
  | 5 => ⟨S8x16, .f32⟩
  | 6 => ⟨S16, .f32⟩
  | 7 => ⟨S16x32, .f32⟩
  | 8 => ⟨S32, .f32⟩
  | 9 => ⟨S32x64, .f32⟩
  | 10 => ⟨S64, .f32⟩
  | 11 => ⟨S64x4, .f32⟩
  | 12 => ⟨S4, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x8, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x8, .f32⟩
  | 59 => ⟨S1600000x1, .f32⟩
  | 60 => ⟨S1600000x8, .f32⟩
  | 61 => ⟨S1600000x8, .f32⟩
  | 62 => ⟨S_, .f32⟩
  | 63 => ⟨S100000x8, .f32⟩
  | 64 => ⟨S1600000x1, .i32⟩
  | 65 => ⟨S100000x8, .f32⟩
  | 66 => ⟨S100000x1, .f32⟩
  | 67 => ⟨S100000x8, .f32⟩
  | 68 => ⟨S100000x8, .f32⟩
  | 69 => ⟨S100000x8, .f32⟩
  | 70 => ⟨S1x8, .f32⟩
  | 71 => ⟨S100000x8, .f32⟩
  | 72 => ⟨S100000x8, .f32⟩
  | 73 => ⟨S100000x8, .f32⟩
  | 74 => ⟨S100000x16, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x16, .f32⟩
  | 103 => ⟨S1600000x1, .f32⟩
  | 104 => ⟨S1600000x16, .f32⟩
  | 105 => ⟨S1600000x16, .f32⟩
  | 106 => ⟨S_, .f32⟩
  | 107 => ⟨S100000x16, .f32⟩
  | 108 => ⟨S1600000x1, .i32⟩
  | 109 => ⟨S100000x16, .f32⟩
  | 110 => ⟨S100000x1, .f32⟩
  | 111 => ⟨S100000x16, .f32⟩
  | 112 => ⟨S100000x16, .f32⟩
  | 113 => ⟨S100000x16, .f32⟩
  | 114 => ⟨S1x16, .f32⟩
  | 115 => ⟨S100000x16, .f32⟩
  | 116 => ⟨S100000x16, .f32⟩
  | 117 => ⟨S100000x16, .f32⟩
  | 118 => ⟨S100000x32, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000, .f32⟩
  | _ => ⟨S100000x8, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000, .f32⟩
  | 9 => ⟨S1600000, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x32, .f32⟩
  | 19 => ⟨S1600000x1, .f32⟩
  | 20 => ⟨S1600000x32, .f32⟩
  | 21 => ⟨S1600000x32, .f32⟩
  | 22 => ⟨S_, .f32⟩
  | 23 => ⟨S100000x32, .f32⟩
  | 24 => ⟨S1600000x1, .i32⟩
  | 25 => ⟨S100000x32, .f32⟩
  | 26 => ⟨S100000x1, .f32⟩
  | 27 => ⟨S100000x32, .f32⟩
  | 28 => ⟨S100000x32, .f32⟩
  | 29 => ⟨S100000x32, .f32⟩
  | 30 => ⟨S1x32, .f32⟩
  | 31 => ⟨S100000x32, .f32⟩
  | 32 => ⟨S100000x32, .f32⟩
  | 33 => ⟨S100000x32, .f32⟩
  | 34 => ⟨S100000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x1, .f32⟩
  | 64 => ⟨S1600000x64, .f32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S100000x1, .f32⟩
  | 71 => ⟨S100000x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S64x64, .f32⟩
  | 79 => ⟨S100000x1, .i32⟩
  | 80 => ⟨S64x64, .f32⟩
  | 81 => ⟨S_, .f32⟩
  | 82 => ⟨S100000, .f32⟩
  | 83 => ⟨S_, .f32⟩
  | 84 => ⟨S64, .f32⟩
  | 85 => ⟨S100000x1, .i32⟩
  | 86 => ⟨S64, .f32⟩
  | 87 => ⟨S_, .f32⟩
  | 88 => ⟨S64, .f32⟩
  | 89 => ⟨S64, .f32⟩
  | 90 => ⟨S64x1, .f32⟩
  | 91 => ⟨S64x64, .f32⟩
  | 92 => ⟨S64x64, .f32⟩
  | 93 => ⟨S64x4, .f32⟩
  | 94 => ⟨S1x4, .f32⟩
  | 95 => ⟨S64x4, .f32⟩
  | 96 => ⟨S64x4, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_16 : Ref sig .tc := ⟨.hbm, 119, rfl⟩
abbrev main_v88 : Ref sig .tc := ⟨.hbm, 120, rfl⟩
abbrev main_v89 : Ref sig .tc := ⟨.hbm, 121, rfl⟩
abbrev main_c_17 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_18 : Ref sig .tc := ⟨.hbm, 128, rfl⟩
abbrev main_v95 : Ref sig .tc := ⟨.hbm, 129, rfl⟩
abbrev main_v96 : Ref sig .tc := ⟨.hbm, 130, rfl⟩
abbrev main_c_19 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_20 : Ref sig .tc := ⟨.hbm, 138, rfl⟩
abbrev main_v103 : Ref sig .tc := ⟨.hbm, 139, rfl⟩
abbrev main_v104 : Ref sig .tc := ⟨.hbm, 140, rfl⟩
abbrev main_c_21 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_22 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_c_23 : Ref sig .tc := ⟨.hbm, 163, rfl⟩
abbrev main_v125 : Ref sig .tc := ⟨.hbm, 164, rfl⟩
abbrev main_v126 : Ref sig .tc := ⟨.hbm, 165, rfl⟩
abbrev main_c_24 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_c_25 : Ref sig .tc := ⟨.hbm, 172, rfl⟩
abbrev main_v132 : Ref sig .tc := ⟨.hbm, 173, rfl⟩
abbrev main_v133 : Ref sig .tc := ⟨.hbm, 174, rfl⟩
abbrev main_c_26 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_c_27 : Ref sig .tc := ⟨.hbm, 182, rfl⟩
abbrev main_v140 : Ref sig .tc := ⟨.hbm, 183, rfl⟩
abbrev main_v141 : Ref sig .tc := ⟨.hbm, 184, rfl⟩
abbrev main_c_28 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_29 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_30 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_cst_31 : Ref sig .tc := ⟨.hbm, 209, rfl⟩
abbrev main_v163 : Ref sig .tc := ⟨.hbm, 210, rfl⟩
abbrev main_cst_32 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_cst_33 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x8_0_1 : S1600000x1.BroadcastsInDim S1600000x8 (![0, 1] : Fin 2 → Fin S1600000x8.rank)
  bcast_S_S100000x8 : S_.BroadcastsInDim S100000x8 (![] : Fin 0 → Fin S100000x8.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  scatter_S100000_S1600000x1_S1600000_n_0_0_1_wf : ScatterDims.WF S100000 S1600000x1 S1600000 [] [0] [0] 1
  dot_S100000x8_S8x8_S100000x8_1_0_0_1_n_n_wf : DotDims.WF S100000x8 S8x8 S100000x8 [1] [0] [0] [1] [] []
  gather_S100000_S1600000x1_S1600000_n_0_n_n_0_1_1_wf : GatherDims.WF S100000 S1600000x1 S1600000 [] [0] [] [0] [] 1 ![1]
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S100000x8_S8x16_S100000x16_1_0_0_1_n_n_wf : DotDims.WF S100000x8 S8x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x4_S64x4_1_0_0_1_n_n_wf : DotDims.WF S64x64 S64x4 S64x4 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x8_S8x8_S100000x8_1_0_0_1_n_n : DotDims S100000x8 S8x8 S100000x8 where
  lhsContracting := [1]
  rhsContracting := [0]
  lhsNonContracting := [0]
  rhsNonContracting := [1]
  lhsBatch := []
  rhsBatch := []
  wf := dot_S100000x8_S8x8_S100000x8_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x4_S64x4_1_0_0_1_n_n : DotDims S64x64 S64x4 S64x4 where
  lhsContracting := [1]
  rhsContracting := [0]
  lhsNonContracting := [0]
  rhsNonContracting := [1]
  lhsBatch := []
  rhsBatch := []
  wf := dot_S64x64_S64x4_S64x4_1_0_0_1_n_n_wf

class Facts : Prop extends Facts₀ where

variable [Facts]
-- ==== Proof.LibMatmul.lean ====
import Idealize.ShloMosaic.Lib.Pipeline.FrameBody
import Idealize.ShloMosaic.Lib.Pipeline.Value
import Idealize.ShloMosaic.Lib.Tactic

noncomputable section

namespace Cert.LibMatmul

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {nD : Nat} {τ : Topo} {sig : RefSig} {F : FTy → Type} [FloatOps F] {Λ₀ : Labels} {m k n : Nat}

-- A body that reads two inputs whole, reads the output, and writes a function of the two inputs over the whole output.
def skel (a1 : Memref sig .tc .vmem ⟨2, ![m, k]⟩ .f32) (a2 : Memref sig .tc .vmem ⟨2, ![k, n]⟩ .f32) (a3 : Memref sig .tc .vmem ⟨2, ![m, n]⟩ .f32)
    (ix : ∀ a, (![0, 0] : Fin 2 → Nat) a + (⟨2, ![m, k]⟩ : Shape).size a ≤ (⟨2, ![m, k]⟩ : Shape).size a)
    (iw : ∀ a, (![0, 0] : Fin 2 → Nat) a + (⟨2, ![k, n]⟩ : Shape).size a ≤ (⟨2, ![k, n]⟩ : Shape).size a)
    (io : ∀ a, (![0, 0] : Fin 2 → Nat) a + (⟨2, ![m, n]⟩ : Shape).size a ≤ (⟨2, ![m, n]⟩ : Shape).size a)
    (hx : 0 < (⟨2, ![m, k]⟩ : Shape).numel) (hw : 0 < (⟨2, ![k, n]⟩ : Shape).numel) (ho : 0 < (⟨2, ![m, n]⟩ : Shape).numel)
    (pay : Vec F ⟨2, ![m, k]⟩ .f32 → Vec F ⟨2, ![k, n]⟩ .f32 → FVec F ⟨2, ![m, n]⟩ .f32) :
    Prog (TpuEff nD τ sig (Elt F) Λ₀ .tc) PUnit := do
  let v0 : Vec F ⟨2, ![m, k]⟩ .f32 ← Prog.lift (.load a1 (Rect.unit (s := ⟨2, ![m, k]⟩) ![0, 0] (⟨2, ![m, k]⟩ : Shape).size ix).toLoadRect (View.loadsAt_vmem hx))
  let v2 : Vec F ⟨2, ![k, n]⟩ .f32 ← Prog.lift (.load a2 (Rect.unit (s := ⟨2, ![k, n]⟩) ![0, 0] (⟨2, ![k, n]⟩ : Shape).size iw).toLoadRect (View.loadsAt_vmem hw))
  let v5 : Vec F ⟨2, ![m, n]⟩ .f32 ← Prog.lift (.load a3 (Rect.unit (s := ⟨2, ![m, n]⟩) ![0, 0] (⟨2, ![m, n]⟩ : Shape).size io).toLoadRect (View.loadsAt_vmem ho))
  Prog.lift (.store a3 (Rect.unit (s := ⟨2, ![m, n]⟩) ![0, 0] (⟨2, ![m, n]⟩ : Shape).size io) (pay v0 v2) Finset.univ (View.stores_vmem_bits_univ ho rfl) (.inl rfl))
  pure ⟨⟩

-- The one store covers the output, so the output ends at the function of the two inputs and the inputs are as they were.
theorem sound (defs₀ : Defs nD τ sig (Elt F) Λ₀) (c : Dev nD) (a1 : Memref sig .tc .vmem ⟨2, ![m, k]⟩ .f32) (a2 : Memref sig .tc .vmem ⟨2, ![k, n]⟩ .f32)
    (a3 : Memref sig .tc .vmem ⟨2, ![m, n]⟩ .f32) (ix iw io hx hw ho)
    (pay : Vec F ⟨2, ![m, k]⟩ .f32 → Vec F ⟨2, ![k, n]⟩ .f32 → FVec F ⟨2, ![m, n]⟩ .f32) (x0 x1 o)
    (e : o = View.canon [⟨Rect.unit ![0, 0] _ io, pay (View.ld x0 (Rect.unit ![0, 0] _ ix)) (View.ld x1 (Rect.unit ![0, 0] _ iw))⟩])
    (K : PUnit → sProp (MT nD τ sig Unit (Elt F) ℕ (UR sig nD τ) ℕ)) :
    iprop(owns (c : Thread nD τ) a1 fullShare x0 ∗ owns (c : Thread nD τ) a2 fullShare x1
        ∗ (∃ d, owns (c : Thread nD τ) a3 fullShare d)
        ∗ (iprop(owns (c : Thread nD τ) a1 fullShare x0 ∗ owns (c : Thread nD τ) a2 fullShare x1
            ∗ owns (c : Thread nD τ) a3 fullShare o) -∗ K ⟨⟩))
      ⊢ wp frame (wpE defs₀ Variants.none c none) Set.univ (skel a1 a2 a3 ix iw io hx hw ho pay) K := by
  subst e
  unfold skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have z : (![0, 0] : Fin 2 → Nat) = fun _ => 0 := funext fun a => by fin_cases a <;> rfl
  exact View.read_writes_eq_canon _ _ _ fun y => ⟨_, List.mem_singleton_self _, View.mem_set_unit_zero z io y⟩

end Cert.LibMatmul

end
-- ==== Proof.K.Reg0.lean ====
import proofs.«135318_j56487409877354_1_alg».proof.Proof.Gen.Kernel.Launch
import proofs.«135318_j56487409877354_1_alg».proof.Proof.Gen.Kernel.Skeleton
import proofs.«135318_j56487409877354_1_alg».proof.Proof.Gen.Kernel.Points
import proofs.«135318_j56487409877354_1_alg».proof.Proof.LibMatmul
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S5000x8 .f32) (x1 : Vec F S8x8 .f32) : Vec F S5000x8 .f32 :=
  View.canon [⟨Rect.unit ![0, 0] S5000x8.size inb_S5000x8_S5000x8_0_0,
    k0_pay1 (View.ld x0 (Rect.unit ![0, 0] S5000x8.size inb_S5000x8_S5000x8_0_0))
      (View.ld x1 (Rect.unit ![0, 0] S8x8.size inb_S8x8_S8x8_0_0))⟩]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (w : Fin cfg0.W) : (dat0 V c).A w = V c (Pipeline.arrRef spec0 w) := rfl

theorem before0 (t : Fin cfg0.N) :
    (∀ d, (dat0 V c).before 0 t d = iblk0 V c 0 t) ∧ ∀ d, (dat0 V c).before 1 t d = iblk0 V c 1 t :=
  ⟨(dat0 V c).before_in_eq_fetched 0 rfl (fun _ => rfl) (fun _ _ _ => rfl) (fun _ => rfl) t,
    (dat0 V c).before_in_eq_fetched 1 rfl (fun _ => rfl) (fun _ _ _ => rfl) (fun _ => rfl) t⟩

theorem body_obligation0 : BodyObligation (dat0 (F := F) V c) (defs₀ (F := F)) Variants.none () Set.univ := fun t => by
  rw [bigSep_W0, bigSep_W0, show (dat0 V c).owesAt () t.succ = (dat0 V c).owesAt () t.castSucc from rfl]
  simp only [(before0 V c t).1, (before0 V c t).2, show ∀ w i, cfg0.idle w i = false from fun _ _ => rfl]
  dsimp only [dat0]
  show _ ⊢ wp _ _ _ (bodyAt0 t) _
  unfold bodyAt0; rw [cc0__matmul_kernel_eq_skeleton]
  iintro ⟨HΦ, Ho, ⟨%d0, H0⟩, ⟨%d1, H1⟩, ⟨%d2, H2⟩⟩
  iapply (Cert.LibMatmul.sound defs₀ c (st0_0 t) (st0_1 t) (st0_2 t) inb_S5000x8_S5000x8_0_0 inb_S8x8_S8x8_0_0 inb_S5000x8_S5000x8_0_0
    h_S5000x8 h_S8x8 h_S5000x8 k0_pay1 (iblk0 V c 0 t) (iblk0 V c 1 t) (out0_2 (iblk0 V c 0 t) (iblk0 V c 1 t)) rfl _)
  iframe H0 H1
  isplitl [H2]; · iexists _; iexact H2
  iintro ⟨H0, H1, H2⟩
  iframe

end Cert.Kernel.Hand

end
-- ==== Proof.LibWhole.lean ====
import Idealize.ShloMosaic.Lib.Pipeline.Value

namespace Cert.LibWhole

open Idealize.ShloMosaic

theorem off2_zero : (![0, 0] : Fin 2 → Nat) = fun _ => 0 := by funext a; fin_cases a <;> rfl

variable {sg : RefSig} {κ : Kind} {sp : Space} {S : Shape} {e : EltTy} {Val : EltTy → Type}
  (v : View sg κ sp S e) {off : Fin S.rank → Nat} (h : off = fun _ => 0) (inb : ∀ a, off a + S.size a ≤ S.size a)
include h

/-- Reading through the full rectangle is reading the buffer. -/
theorem readAt_unit_zero (f : v.ty.Contents Val) : v.readAt Val (Rect.unit off S.size inb).toLoadRect f = v.read Val f :=
  View.ld_unit_zero h inb _

variable [∀ e, Nonempty (Val e)] (w : S.Idx → Val e) (L : List (View.Piece Val S e))

/-- After a write through the full rectangle the buffer reads as the written value, whatever came before. -/
theorem read_writes_unit_zero (f : v.ty.Contents Val) :
    v.read Val (v.writes Val f ((⟨Rect.unit off S.size inb, w⟩ : View.Piece Val S e) :: L)) = w := by
  rw [View.read_writes_eq_canon _ _ _ (fun y => ⟨_, List.mem_cons_self, View.mem_set_unit_zero h inb y⟩)]
  exact View.canon_cons_unit_zero h inb w L

/-- The same for a read, through the full rectangle, of the pieces written so far. -/
theorem readCov_unit_zero :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h]

end Cert.LibWhole
-- ==== Proof.LibBlocks.lean ====
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

section Plain

variable {M K N : Nat}

theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

end Cert.LibBlocks

end
-- ==== Proof.LibColumn.lean ====
import Idealize.ShloMosaic.Lib.Pipeline.Value
import Idealize.ShloMosaic.Lib.ValueIdx

namespace Cert.Proof.Column

open Idealize.ShloMosaic Idealize.ShloMosaic.ValueIdx

variable {α : Type}

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.LibBlockOps.lean ====
import proofs.«135318_j56487409877354_1_alg».proof.Proof.LibBlocks
import proofs.«135318_j56487409877354_1_alg».proof.Proof.LibColumn

noncomputable section

open scoped BigOperators

namespace Cert.Proof.Pure

open Idealize.ShloMosaic Idealize.ShloMosaic.ValueIdx Cert.LibBlocks

theorem hz : (![0, 0] : Fin 2 → Nat) = fun _ => 0 := funext fun a => by fin_cases a <;> rfl

theorem blockScale_apply {n N b : Nat}
    (hb : (⟨2, ![n, 1]⟩ : Shape).Broadcasts ⟨2, ![n, b]⟩)
    (hbd : (⟨2, ![N, 1]⟩ : Shape).BroadcastsInDim ⟨2, ![N, b]⟩ ![0, 1])
    (x0 : FVec Ideal ⟨2, ![n, b]⟩ .f32) (x1 : FVec Ideal ⟨2, ![n, 1]⟩ .f32)
    (a : FVec Ideal ⟨2, ![N, b]⟩ .f32) (col : FVec Ideal ⟨2, ![N, 1]⟩ .f32)
    (p : Fin n) (r : Fin N) (q : Fin b) (h0 : x0 (ix2 p q) = a (ix2 r q))
    (h1 : x1 (ix2 p (0 : Fin 1)) = col (ix2 r (0 : Fin 1))) :
    mulf x0 (broadcastTo ⟨2, ![n, b]⟩ x1 hb) (ix2 p q)
      = mulf a (broadcastInDim ⟨2, ![N, b]⟩ ![0, 1] hbd col) (ix2 r q) := by
  rw [mulf_apply, mulf_apply, Cert.Proof.Column.broadcastTo_a1_ab_apply,
    broadcastInDim_apply ![0, 1] hbd col (ix2 r q) (ix2 r (0 : Fin 1)) (fun ax => by
      match ax with
      | ⟨0, _⟩ =>
        show r.val = if N = 1 then 0 else r.val
        have := r.isLt
        split_ifs <;> omega
      | ⟨1, _⟩ => rfl),
    h0, h1]

theorem blockBias_apply {n N b : Nat}
    (hb : (⟨2, ![1, b]⟩ : Shape).Broadcasts ⟨2, ![n, b]⟩)
    (hbd : (⟨2, ![1, b]⟩ : Shape).BroadcastsInDim ⟨2, ![N, b]⟩ ![0, 1])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    addf x0 (broadcastTo ⟨2, ![n, b]⟩ x1 hb) (ix2 p q)
      = addf a (broadcastInDim ⟨2, ![N, b]⟩ ![0, 1] hbd b2) (ix2 r q) := by
  subst h1
  rw [addf_apply, addf_apply,
    broadcastTo_apply x1 hb (ix2 p q) (ix2 (0 : Fin 1) q) (fun ax => by
      match ax with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun ax => by
      match ax with
      | ⟨0, _⟩ => rfl
      | ⟨1, _⟩ =>
        show q.val = if b = 1 then 0 else q.val
        have := q.isLt
        split_ifs <;> omega),
    h0]

end Cert.Proof.Pure

end
-- ==== Proof.LibCombine.lean ====
import proofs.«135318_j56487409877354_1_alg».proof.Proof.LibWhole
import proofs.«135318_j56487409877354_1_alg».proof.Proof.LibBlockOps
import Idealize.ShloMosaic.Lib.Pipeline.FrameBody
import Idealize.ShloMosaic.Lib.Pipeline.Value
import Idealize.ShloMosaic.Lib.Tactic

noncomputable section

namespace Cert.LibCombine

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.ProofMode Idealize.SL.Sem

/-- A block element sits in the array, on each axis, at the block index times the block size plus its coordinate. -/
theorem emb_eq {sig : RefSig} {G : Pipeline.Grid} (w : Pipeline.Window sig G) (t : Fin G.N)
    (y : (w.xblock (G.coords t)).Idx) (i : w.shape.Idx) (h : ∀ a, w.index t a * w.size a + y a = i a) :
    (w.rect t).emb y = i :=
  funext fun a => Fin.ext ((w.rect_emb_val t y a).trans (h a))

variable {nD : Nat} {τ : Topo} {sig : RefSig} {Λ₀ : Labels} {F : FTy → Type} [FloatOps F] {S Sd Sb : Shape}
  {o : Fin S.rank → ℕ} {od : Fin Sd.rank → ℕ} {ob : Fin Sb.rank → ℕ}
  {inb : ∀ a, o a + S.size a ≤ S.size a} {inbd : ∀ a, od a + Sd.size a ≤ Sd.size a} {inbb : ∀ a, ob a + Sb.size a ≤ Sb.size a}
  {hS : 0 < S.numel} {hSd : 0 < Sd.numel} {hSb : 0 < Sb.numel}
  {pay : Vec F Sd .f32 → Vec F S .f32 → Vec F S .f32 → Vec F Sb .f32 → FVec F S .f32}
  {arg1 arg2 arg5 : Memref sig .tc .vmem S .f32} {arg3 : Memref sig .tc .vmem Sd .f32} {arg4 : Memref sig .tc .vmem Sb .f32}

/-- A combine body over any shapes: four whole loads, a load of the output nothing reads, one whole store of pay of the four. -/
def combSkel (inb : ∀ a, o a + S.size a ≤ S.size a) (inbd : ∀ a, od a + Sd.size a ≤ Sd.size a) (inbb : ∀ a, ob a + Sb.size a ≤ Sb.size a)
    (hS : 0 < S.numel) (hSd : 0 < Sd.numel) (hSb : 0 < Sb.numel)
    (pay : Vec F Sd .f32 → Vec F S .f32 → Vec F S .f32 → Vec F Sb .f32 → FVec F S .f32)
    (arg1 arg2 arg5 : Memref sig .tc .vmem S .f32) (arg3 : Memref sig .tc .vmem Sd .f32) (arg4 : Memref sig .tc .vmem Sb .f32) :
    Prog (TpuEff nD τ sig (Elt F) Λ₀ .tc) PUnit := do
  let v0 : Vec F Sd .f32 ← Prog.lift (.load arg3 (Rect.unit (s := Sd) od Sd.size inbd).toLoadRect (View.loadsAt_vmem hSd))
  let v4 : Vec F S .f32 ← Prog.lift (.load arg1 (Rect.unit (s := S) o S.size inb).toLoadRect (View.loadsAt_vmem hS))
  let v6 : Vec F S .f32 ← Prog.lift (.load arg2 (Rect.unit (s := S) o S.size inb).toLoadRect (View.loadsAt_vmem hS))
  let v10 : Vec F Sb .f32 ← Prog.lift (.load arg4 (Rect.unit (s := Sb) ob Sb.size inbb).toLoadRect (View.loadsAt_vmem hSb))
  let v15 : Vec F S .f32 ← Prog.lift (.load arg5 (Rect.unit (s := S) o S.size inb).toLoadRect (View.loadsAt_vmem hS))
  Prog.lift (.store arg5 (Rect.unit (s := S) o S.size inb) (pay v0 v4 v6 v10) Finset.univ (View.stores_vmem_bits_univ hS rfl) (.inl rfl))
  pure ⟨⟩

/-- What the one store, which covers the output, leaves there. -/
abbrev combOut (inb : ∀ a, o a + S.size a ≤ S.size a) (inbd : ∀ a, od a + Sd.size a ≤ Sd.size a) (inbb : ∀ a, ob a + Sb.size a ≤ Sb.size a)
    (pay : Vec F Sd .f32 → Vec F S .f32 → Vec F S .f32 → Vec F Sb .f32 → FVec F S .f32)
    (x0 x1 : Vec F S .f32) (x2 : Vec F Sd .f32) (x3 : Vec F Sb .f32) : Vec F S .f32 :=
  View.canon [⟨Rect.unit o S.size inb, pay (View.ld x2 (Rect.unit od Sd.size inbd)) (View.ld x0 (Rect.unit o S.size inb))
    (View.ld x1 (Rect.unit o S.size inb)) (View.ld x3 (Rect.unit ob Sb.size inbb))⟩]

/-- The body keeps its inputs and leaves the output at combOut of them: its one store is at zero offsets over the whole shape, so it covers. -/
theorem combine_triple (ho : o = fun _ => 0) {defs : Defs nD τ sig (Elt F) Λ₀} {𝒱 : Variants} (c : Dev nD) (E : Set ℕ)
    (x0 x1 : Vec F S .f32) (x2 : Vec F Sd .f32) (x3 : Vec F Sb .f32) (K : PUnit → sProp (MT nD τ sig Unit (Elt F) ℕ (UR sig nD τ) ℕ)) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (combOut inb inbd inbb pay x0 x1 x2 x3)) -∗ K ⟨⟩))
      ⊢ wp frame (wpE defs 𝒱 c none) E (combSkel inb inbd inbb hS hSd hSb pay arg1 arg2 arg5 arg3 arg4) K := by
  unfold combSkel combOut owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (fun y => ⟨_, List.mem_singleton_self _, View.mem_set_unit_zero ho inb y⟩)

/-- At one entry the combination of a row block is that of the whole array where the block's row sits: both are pointwise in the row, and post is applied to each. -/
theorem combine_apply {n N b : ℕ} (post : Ideal .f32 → Ideal .f32)
    (postV : FVec Ideal ⟨2, ![N, b]⟩ .f32 → FVec Ideal ⟨2, ![N, b]⟩ .f32) (hpost : ∀ v i, postV v i = post (v i))
    (hb1 : (⟨2, ![n, 1]⟩ : Shape).Broadcasts ⟨2, ![n, b]⟩) (hb2 : (⟨2, ![1, b]⟩ : Shape).Broadcasts ⟨2, ![n, b]⟩)
    (hc : (⟨2, ![N, 1]⟩ : Shape).BroadcastsInDim ⟨2, ![N, b]⟩ ![0, 1]) (hr : (⟨2, ![1, b]⟩ : Shape).BroadcastsInDim ⟨2, ![N, b]⟩ ![0, 1])
    (xa xh : FVec Ideal ⟨2, ![n, b]⟩ .f32) (xd : FVec Ideal ⟨2, ![n, 1]⟩ .f32) (xb : FVec Ideal ⟨2, ![1, b]⟩ .f32)
    (A H : FVec Ideal ⟨2, ![N, b]⟩ .f32) (D : FVec Ideal ⟨2, ![N, 1]⟩ .f32) (p : Fin n) (r : Fin N) (q : Fin b)
    (ha : xa (ix2 p q) = A (ix2 r q)) (hh : xh (ix2 p q) = H (ix2 r q))
    (hd : xd (ix2 p (0 : Fin 1)) = D (ix2 r (0 : Fin 1))) :
    post (addf (addf xa (mulf xh (broadcastTo _ xd hb1))) (broadcastTo _ xb hb2) (ix2 p q))
      = postV (addf (addf A (mulf H (broadcastInDim _ ![0, 1] hc D))) (broadcastInDim _ ![0, 1] hr xb)) (ix2 r q) := by
  rw [hpost]
  refine congrArg post (Cert.Proof.Pure.blockBias_apply hb2 hr _ xb _ xb p r q ?_ rfl)
  rw [addf_apply, addf_apply, ha]
  exact congrArg _ (Cert.Proof.Pure.blockScale_apply hb1 hc xh xd H D p r q hh hd)

/-- A written-back entry of the combination of row blocks is the whole-array combination at the entry's place: block row p of every row-blocked input is array row T n + p, the bias block is the bias row. -/
theorem combine_block {n N b : ℕ} (post : Ideal .f32 → Ideal .f32)
    (postV : FVec Ideal ⟨2, ![N, b]⟩ .f32 → FVec Ideal ⟨2, ![N, b]⟩ .f32) (hpost : ∀ v i, postV v i = post (v i))
    (hb1 : (⟨2, ![n, 1]⟩ : Shape).Broadcasts ⟨2, ![n, b]⟩) (hb2 : (⟨2, ![1, b]⟩ : Shape).Broadcasts ⟨2, ![n, b]⟩)
    (hc : (⟨2, ![N, 1]⟩ : Shape).BroadcastsInDim ⟨2, ![N, b]⟩ ![0, 1]) (hr : (⟨2, ![1, b]⟩ : Shape).BroadcastsInDim ⟨2, ![N, b]⟩ ![0, 1])
    (A H : FVec Ideal ⟨2, ![N, b]⟩ .f32) (D : FVec Ideal ⟨2, ![N, 1]⟩ .f32) (B : FVec Ideal ⟨2, ![1, b]⟩ .f32)
    (e0 e1 e4 : (⟨2, ![n, b]⟩ : Shape).Idx → (⟨2, ![N, b]⟩ : Shape).Idx)
    (e2 : (⟨2, ![n, 1]⟩ : Shape).Idx → (⟨2, ![N, 1]⟩ : Shape).Idx) (e3 : (⟨2, ![1, b]⟩ : Shape).Idx → (⟨2, ![1, b]⟩ : Shape).Idx)
    (k0 k1 k2 k3 k4 : Fin 2 → ℕ) (T : ℕ)
    (he0 : ∀ y a, (e0 y a : ℕ) = k0 a * ![n, b] a + y a) (he1 : ∀ y a, (e1 y a : ℕ) = k1 a * ![n, b] a + y a)
    (he2 : ∀ y a, (e2 y a : ℕ) = k2 a * ![n, 1] a + y a) (he3 : ∀ y a, (e3 y a : ℕ) = k3 a * ![1, b] a + y a)
    (he4 : ∀ y a, (e4 y a : ℕ) = k4 a * ![n, b] a + y a)
    (hk : k0 0 = T ∧ k0 1 = 0 ∧ k1 0 = T ∧ k1 1 = 0 ∧ k2 0 = T ∧ k2 1 = 0 ∧ k3 0 = 0 ∧ k3 1 = 0 ∧ k4 0 = T ∧ k4 1 = 0)
    (j : (⟨2, ![n, b]⟩ : Shape).Idx) :
    post (addf (addf (fun y => A (e0 y)) (mulf (fun y => H (e1 y)) (broadcastTo _ (fun y => D (e2 y)) hb1))) (broadcastTo _ (fun y => B (e3 y)) hb2) j)
      = postV (addf (addf A (mulf H (broadcastInDim _ ![0, 1] hc D))) (broadcastInDim _ ![0, 1] hr B)) (e4 j) := by
  obtain ⟨a0, a1, c0, c1, d0, d1, b0, b1, o0, o1⟩ := hk
  have r4 : (e4 j 0 : ℕ) = T * n + (j 0).val := (he4 j 0).trans (congrArg (· * n + (j 0).val) o0)
  have row : ∀ {m : ℕ} (e : (⟨2, ![n, m]⟩ : Shape).Idx → (⟨2, ![N, m]⟩ : Shape).Idx) (k : Fin 2 → ℕ) (y : (⟨2, ![n, m]⟩ : Shape).Idx),
      (e y 0 : ℕ) = k 0 * n + (y 0).val → (e y 1 : ℕ) = k 1 * m + (y 1).val → k 0 = T → k 1 = 0 → (y 0).val = (j 0).val →
      e y = ix2 (e4 j 0) (y 1) := fun e k y q0 q1 h0 h1 hy =>
    funext (Fin.forall_fin_two.2 ⟨Fin.ext (show (e y 0 : ℕ) = (e4 j 0 : ℕ) by rw [q0, h0, hy, r4]),
      Fin.ext (show (e y 1 : ℕ) = (y 1).val from q1.trans (by rw [h1, Nat.zero_mul, Nat.zero_add]))⟩)
  have E0 := row e0 k0 j (he0 j 0) (he0 j 1) a0 a1 rfl
  have E1 := row e1 k1 j (he1 j 0) (he1 j 1) c0 c1 rfl
  have E4 := row e4 k4 j (he4 j 0) (he4 j 1) o0 o1 rfl
  have E2 := row e2 k2 (ix2 (j 0) 0) (he2 _ 0) (he2 _ 1) d0 d1 rfl
  have E3 : (fun y => B (e3 y)) = B := funext fun x => congrArg B (funext (Fin.forall_fin_two.2
    ⟨Fin.ext ((he3 x 0).trans (by rw [b0, Nat.zero_mul, Nat.zero_add])), Fin.ext ((he3 x 1).trans (by rw [b1, Nat.zero_mul, Nat.zero_add]))⟩))
  rw [E3, E4]
  have key := combine_apply post postV hpost hb1 hb2 hc hr (fun y => A (e0 y)) (fun y => H (e1 y)) (fun y => D (e2 y)) B A H D (j 0) (e4 j 0) (j 1)
    (congrArg A ((congrArg e0 (eq_ix2 j).symm).trans E0)) (congrArg H ((congrArg e1 (eq_ix2 j).symm).trans E1)) (congrArg D E2)
  conv_lhs => rw [eq_ix2 j]
  exact key

end Cert.LibCombine

end
-- ==== Proof.K.Reg1.lean ====
import proofs.«135318_j56487409877354_1_alg».proof.Proof.Gen.Kernel.Launch
import proofs.«135318_j56487409877354_1_alg».proof.Proof.Gen.Kernel.Skeleton
import proofs.«135318_j56487409877354_1_alg».proof.Proof.Gen.Kernel.Points
import proofs.«135318_j56487409877354_1_alg».proof.Proof.LibCombine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.LibCombine

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x8 := Rect.unit (s := S5000x8) ![0, 0] S5000x8.size inb_S5000x8_S5000x8_0_0
abbrev r1_d : Rect S5000x1 := Rect.unit (s := S5000x1) ![0, 0] S5000x1.size inb_S5000x1_S5000x1_0_0
abbrev r1_b : Rect S1x8 := Rect.unit (s := S1x8) ![0, 0] S1x8.size inb_S1x8_S1x8_0_0

/-- What the body's one store, which covers the output buffer, leaves there. -/
def out1_4 (x0 x1 : Vec F S5000x8 .f32) (x2 : Vec F S5000x1 .f32) (x3 : Vec F S1x8 .f32) : Vec F S5000x8 .f32 :=
  View.canon [⟨r1_a, k1_pay1 (View.ld x2 r1_d) (View.ld x0 r1_a) (View.ld x1 r1_a) (View.ld x3 r1_b)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

/-- The body is the shared combine body at this region's shapes and payload, and at every point the inputs hold their blocks. -/
theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl]
  simp only [before1_0, before1_1, before1_2, before1_3]
  dsimp only [dat1, out1_4]
  show _ ⊢ wp _ _ _ (combSkel inb_S5000x8_S5000x8_0_0 inb_S5000x1_S5000x1_0_0 inb_S1x8_S1x8_0_0 h_S5000x8 h_S5000x1 h_S1x8 k1_pay1 _ _ _ _ _) _
  iintro ⟨HΦ, Ho, ⟨%d0, H0⟩, ⟨%d1, H1⟩, ⟨%d2, H2⟩, ⟨%d3, H3⟩, ⟨%d4, H4⟩⟩
  iapply (combine_triple Cert.LibWhole.off2_zero c Set.univ (iblk1 V c 0 t) (iblk1 V c 1 t) (iblk1 V c 2 t) (iblk1 V c 3 t) _)
  iframe
  isplitl [H4]; · iexists _; iexact H4
  iintro ⟨H0, H1, H2, H3, H4⟩
  iframe

end Cert.Kernel.Hand
-- ==== Proof.K.Reg2.lean ====
import proofs.«135318_j56487409877354_1_alg».proof.Proof.Gen.Kernel.Launch
import proofs.«135318_j56487409877354_1_alg».proof.Proof.Gen.Kernel.Skeleton
import proofs.«135318_j56487409877354_1_alg».proof.Proof.Gen.Kernel.Points
import proofs.«135318_j56487409877354_1_alg».proof.Proof.LibMatmul
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S5000x8 .f32) (x1 : Vec F S8x16 .f32) : Vec F S5000x16 .f32 :=
  View.canon [⟨Rect.unit ![0, 0] S5000x16.size inb_S5000x16_S5000x16_0_0,
    k2_pay1 (View.ld x0 (Rect.unit ![0, 0] S5000x8.size inb_S5000x8_S5000x8_0_0))
      (View.ld x1 (Rect.unit ![0, 0] S8x16.size inb_S8x16_S8x16_0_0))⟩]

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (w : Fin cfg2.W) : (dat2 V c).A w = V c (Pipeline.arrRef spec2 w) := rfl

theorem before2 (t : Fin cfg2.N) :
    (∀ d, (dat2 V c).before 0 t d = iblk2 V c 0 t) ∧ ∀ d, (dat2 V c).before 1 t d = iblk2 V c 1 t :=
  ⟨(dat2 V c).before_in_eq_fetched 0 rfl (fun _ => rfl) (fun _ _ _ => rfl) (fun _ => rfl) t,
    (dat2 V c).before_in_eq_fetched 1 rfl (fun _ => rfl) (fun _ _ _ => rfl) (fun _ => rfl) t⟩

theorem body_obligation2 : BodyObligation (dat2 (F := F) V c) (defs₀ (F := F)) Variants.none () Set.univ := fun t => by
  rw [bigSep_W2, bigSep_W2, show (dat2 V c).owesAt () t.succ = (dat2 V c).owesAt () t.castSucc from rfl]
  simp only [(before2 V c t).1, (before2 V c t).2, show ∀ w i, cfg2.idle w i = false from fun _ _ => rfl]
  dsimp only [dat2]
  show _ ⊢ wp _ _ _ (bodyAt2 t) _
  unfold bodyAt2; rw [cc2__matmul_kernel_eq_skeleton]
  iintro ⟨HΦ, Ho, ⟨%d0, H0⟩, ⟨%d1, H1⟩, ⟨%d2, H2⟩⟩
  iapply (Cert.LibMatmul.sound defs₀ c (st2_0 t) (st2_1 t) (st2_2 t) inb_S5000x8_S5000x8_0_0 inb_S8x16_S8x16_0_0 inb_S5000x16_S5000x16_0_0
    h_S5000x8 h_S8x16 h_S5000x16 k2_pay1 (iblk2 V c 0 t) (iblk2 V c 1 t) (out2_2 (iblk2 V c 0 t) (iblk2 V c 1 t)) rfl _)
  iframe H0 H1
  isplitl [H2]; · iexists _; iexact H2
  iintro ⟨H0, H1, H2⟩
  iframe

end Cert.Kernel.Hand

end
-- ==== Proof.K.Reg3.lean ====
import proofs.«135318_j56487409877354_1_alg».proof.Proof.Gen.Kernel.Launch
import proofs.«135318_j56487409877354_1_alg».proof.Proof.Gen.Kernel.Skeleton
import proofs.«135318_j56487409877354_1_alg».proof.Proof.Gen.Kernel.Points
import proofs.«135318_j56487409877354_1_alg».proof.Proof.LibCombine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.LibCombine

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S5000x16 := Rect.unit (s := S5000x16) ![0, 0] S5000x16.size inb_S5000x16_S5000x16_0_0
abbrev r3_d : Rect S5000x1 := Rect.unit (s := S5000x1) ![0, 0] S5000x1.size inb_S5000x1_S5000x1_0_0
abbrev r3_b : Rect S1x16 := Rect.unit (s := S1x16) ![0, 0] S1x16.size inb_S1x16_S1x16_0_0

/-- What the body's one store, which covers the output buffer, leaves there. -/
def out3_4 (x0 x1 : Vec F S5000x16 .f32) (x2 : Vec F S5000x1 .f32) (x3 : Vec F S1x16 .f32) : Vec F S5000x16 .f32 :=
  View.canon [⟨r3_a, k3_pay1 (View.ld x2 r3_d) (View.ld x0 r3_a) (View.ld x1 r3_a) (View.ld x3 r3_b)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl

/-- The body is the shared combine body at this region's shapes and payload, and at every point the inputs hold their blocks. -/
theorem body_obligation3 (c : Dev nD) : BodyObligation (dat3 (F := F) V c) (defs₀ (F := F)) Variants.none () Set.univ := fun t => by
  rw [bigSep_W3, bigSep_W3, show (dat3 V c).Φ t.succ = (dat3 V c).Φ t.castSucc from rfl,
    show (dat3 V c).owesAt () t.succ = (dat3 V c).owesAt () t.castSucc from rfl]
  simp only [before3_0, before3_1, before3_2, before3_3]
  dsimp only [dat3, out3_4]
  show _ ⊢ wp _ _ _ (combSkel inb_S5000x16_S5000x16_0_0 inb_S5000x1_S5000x1_0_0 inb_S1x16_S1x16_0_0 h_S5000x16 h_S5000x1 h_S1x16 k3_pay1 _ _ _ _ _) _
  iintro ⟨HΦ, Ho, ⟨%d0, H0⟩, ⟨%d1, H1⟩, ⟨%d2, H2⟩, ⟨%d3, H3⟩, ⟨%d4, H4⟩⟩
  iapply (combine_triple Cert.LibWhole.off2_zero c Set.univ (iblk3 V c 0 t) (iblk3 V c 1 t) (iblk3 V c 2 t) (iblk3 V c 3 t) _)
  iframe
  isplitl [H4]; · iexists _; iexact H4
  iintro ⟨H0, H1, H2, H3, H4⟩
  iframe

end Cert.Kernel.Hand
-- ==== Proof.K.Reg4.lean ====
import proofs.«135318_j56487409877354_1_alg».proof.Proof.Gen.Kernel.Launch
import proofs.«135318_j56487409877354_1_alg».proof.Proof.Gen.Kernel.Skeleton
import proofs.«135318_j56487409877354_1_alg».proof.Proof.Gen.Kernel.Points
import proofs.«135318_j56487409877354_1_alg».proof.Proof.LibMatmul
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S5000x16 .f32) (x1 : Vec F S16x32 .f32) : Vec F S5000x32 .f32 :=
  View.canon [⟨Rect.unit ![0, 0] S5000x32.size inb_S5000x32_S5000x32_0_0,
    k4_pay1 (View.ld x0 (Rect.unit ![0, 0] S5000x16.size inb_S5000x16_S5000x16_0_0))
      (View.ld x1 (Rect.unit ![0, 0] S16x32.size inb_S16x32_S16x32_0_0))⟩]

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (w : Fin cfg4.W) : (dat4 V c).A w = V c (Pipeline.arrRef spec4 w) := rfl

theorem before4 (t : Fin cfg4.N) :
    (∀ d, (dat4 V c).before 0 t d = iblk4 V c 0 t) ∧ ∀ d, (dat4 V c).before 1 t d = iblk4 V c 1 t :=
  ⟨(dat4 V c).before_in_eq_fetched 0 rfl (fun _ => rfl) (fun _ _ _ => rfl) (fun _ => rfl) t,
    (dat4 V c).before_in_eq_fetched 1 rfl (fun _ => rfl) (fun _ _ _ => rfl) (fun _ => rfl) t⟩

theorem body_obligation4 : BodyObligation (dat4 (F := F) V c) (defs₀ (F := F)) Variants.none () Set.univ := fun t => by
  rw [bigSep_W4, bigSep_W4, show (dat4 V c).owesAt () t.succ = (dat4 V c).owesAt () t.castSucc from rfl]
  simp only [(before4 V c t).1, (before4 V c t).2, show ∀ w i, cfg4.idle w i = false from fun _ _ => rfl]
  dsimp only [dat4]
  show _ ⊢ wp _ _ _ (bodyAt4 t) _
  unfold bodyAt4; rw [cc4__matmul_kernel_eq_skeleton]
  iintro ⟨HΦ, Ho, ⟨%d0, H0⟩, ⟨%d1, H1⟩, ⟨%d2, H2⟩⟩
  iapply (Cert.LibMatmul.sound defs₀ c (st4_0 t) (st4_1 t) (st4_2 t) inb_S5000x16_S5000x16_0_0 inb_S16x32_S16x32_0_0 inb_S5000x32_S5000x32_0_0
    h_S5000x16 h_S16x32 h_S5000x32 k4_pay1 (iblk4 V c 0 t) (iblk4 V c 1 t) (out4_2 (iblk4 V c 0 t) (iblk4 V c 1 t)) rfl _)
  iframe H0 H1
  isplitl [H2]; · iexists _; iexact H2
  iintro ⟨H0, H1, H2⟩
  iframe

end Cert.Kernel.Hand

end
-- ==== Proof.K.Reg5.lean ====
import proofs.«135318_j56487409877354_1_alg».proof.Proof.Gen.Kernel.Launch
import proofs.«135318_j56487409877354_1_alg».proof.Proof.Gen.Kernel.Skeleton
import proofs.«135318_j56487409877354_1_alg».proof.Proof.Gen.Kernel.Points
import proofs.«135318_j56487409877354_1_alg».proof.Proof.LibCombine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.LibCombine

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S5000x32 := Rect.unit (s := S5000x32) ![0, 0] S5000x32.size inb_S5000x32_S5000x32_0_0
abbrev r5_d : Rect S5000x1 := Rect.unit (s := S5000x1) ![0, 0] S5000x1.size inb_S5000x1_S5000x1_0_0
abbrev r5_b : Rect S1x32 := Rect.unit (s := S1x32) ![0, 0] S1x32.size inb_S1x32_S1x32_0_0

/-- What the body's one store, which covers the output buffer, leaves there. -/
def out5_4 (x0 x1 : Vec F S5000x32 .f32) (x2 : Vec F S5000x1 .f32) (x3 : Vec F S1x32 .f32) : Vec F S5000x32 .f32 :=
  View.canon [⟨r5_a, k5_pay1 (View.ld x2 r5_d) (View.ld x0 r5_a) (View.ld x1 r5_a) (View.ld x3 r5_b)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

/-- The body is the shared combine body at this region's shapes and payload, and at every point the inputs hold their blocks. -/
theorem body_obligation5 (c : Dev nD) : BodyObligation (dat5 (F := F) V c) (defs₀ (F := F)) Variants.none () Set.univ := fun t => by
  rw [bigSep_W5, bigSep_W5, show (dat5 V c).Φ t.succ = (dat5 V c).Φ t.castSucc from rfl,
    show (dat5 V c).owesAt () t.succ = (dat5 V c).owesAt () t.castSucc from rfl]
  simp only [before5_0, before5_1, before5_2, before5_3]
  dsimp only [dat5, out5_4]
  show _ ⊢ wp _ _ _ (combSkel inb_S5000x32_S5000x32_0_0 inb_S5000x1_S5000x1_0_0 inb_S1x32_S1x32_0_0 h_S5000x32 h_S5000x1 h_S1x32 k5_pay1 _ _ _ _ _) _
  iintro ⟨HΦ, Ho, ⟨%d0, H0⟩, ⟨%d1, H1⟩, ⟨%d2, H2⟩, ⟨%d3, H3⟩, ⟨%d4, H4⟩⟩
  iapply (combine_triple Cert.LibWhole.off2_zero c Set.univ (iblk5 V c 0 t) (iblk5 V c 1 t) (iblk5 V c 2 t) (iblk5 V c 3 t) _)
  iframe
  isplitl [H4]; · iexists _; iexact H4
  iintro ⟨H0, H1, H2, H3, H4⟩
  iframe

end Cert.Kernel.Hand
-- ==== Proof.K.Reg6.lean ====
import proofs.«135318_j56487409877354_1_alg».proof.Proof.Gen.Kernel.Launch
import proofs.«135318_j56487409877354_1_alg».proof.Proof.Gen.Kernel.Skeleton
import proofs.«135318_j56487409877354_1_alg».proof.Proof.Gen.Kernel.Points
import proofs.«135318_j56487409877354_1_alg».proof.Proof.LibMatmul
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_2 (x0 : Vec F S5000x32 .f32) (x1 : Vec F S32x64 .f32) : Vec F S5000x64 .f32 :=
  View.canon [⟨Rect.unit ![0, 0] S5000x64.size inb_S5000x64_S5000x64_0_0,
    k6_pay1 (View.ld x0 (Rect.unit ![0, 0] S5000x32.size inb_S5000x32_S5000x32_0_0))
      (View.ld x1 (Rect.unit ![0, 0] S32x64.size inb_S32x64_S32x64_0_0))⟩]

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (w : Fin cfg6.W) : (dat6 V c).A w = V c (Pipeline.arrRef spec6 w) := rfl

theorem before6 (t : Fin cfg6.N) :
    (∀ d, (dat6 V c).before 0 t d = iblk6 V c 0 t) ∧ ∀ d, (dat6 V c).before 1 t d = iblk6 V c 1 t :=
  ⟨(dat6 V c).before_in_eq_fetched 0 rfl (fun _ => rfl) (fun _ _ _ => rfl) (fun _ => rfl) t,
    (dat6 V c).before_in_eq_fetched 1 rfl (fun _ => rfl) (fun _ _ _ => rfl) (fun _ => rfl) t⟩

theorem body_obligation6 : BodyObligation (dat6 (F := F) V c) (defs₀ (F := F)) Variants.none () Set.univ := fun t => by
  rw [bigSep_W6, bigSep_W6, show (dat6 V c).owesAt () t.succ = (dat6 V c).owesAt () t.castSucc from rfl]
  simp only [(before6 V c t).1, (before6 V c t).2, show ∀ w i, cfg6.idle w i = false from fun _ _ => rfl]
  dsimp only [dat6]
  show _ ⊢ wp _ _ _ (bodyAt6 t) _
  unfold bodyAt6; rw [cc6__matmul_kernel_eq_skeleton]
  iintro ⟨HΦ, Ho, ⟨%d0, H0⟩, ⟨%d1, H1⟩, ⟨%d2, H2⟩⟩
  iapply (Cert.LibMatmul.sound defs₀ c (st6_0 t) (st6_1 t) (st6_2 t) inb_S5000x32_S5000x32_0_0 inb_S32x64_S32x64_0_0 inb_S5000x64_S5000x64_0_0
    h_S5000x32 h_S32x64 h_S5000x64 k6_pay1 (iblk6 V c 0 t) (iblk6 V c 1 t) (out6_2 (iblk6 V c 0 t) (iblk6 V c 1 t)) rfl _)
  iframe H0 H1
  isplitl [H2]; · iexists _; iexact H2
  iintro ⟨H0, H1, H2⟩
  iframe

end Cert.Kernel.Hand

end
-- ==== Proof.K.Reg7.lean ====
import proofs.«135318_j56487409877354_1_alg».proof.Proof.Gen.Kernel.Launch
import proofs.«135318_j56487409877354_1_alg».proof.Proof.Gen.Kernel.Skeleton
import proofs.«135318_j56487409877354_1_alg».proof.Proof.Gen.Kernel.Points
import proofs.«135318_j56487409877354_1_alg».proof.Proof.LibCombine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.LibCombine

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_a : Rect S5000x64 := Rect.unit (s := S5000x64) ![0, 0] S5000x64.size inb_S5000x64_S5000x64_0_0
abbrev r7_d : Rect S5000x1 := Rect.unit (s := S5000x1) ![0, 0] S5000x1.size inb_S5000x1_S5000x1_0_0
abbrev r7_b : Rect S1x64 := Rect.unit (s := S1x64) ![0, 0] S1x64.size inb_S1x64_S1x64_0_0

/-- What the body's one store, which covers the output buffer, leaves there. -/
def out7_4 (x0 x1 : Vec F S5000x64 .f32) (x2 : Vec F S5000x1 .f32) (x3 : Vec F S1x64 .f32) : Vec F S5000x64 .f32 :=
  View.canon [⟨r7_a, k7_pay1 (View.ld x2 r7_d) (View.ld x0 r7_a) (View.ld x1 r7_a) (View.ld x3 r7_b)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := rfl

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl

/-- The body is the shared combine body at this region's shapes and payload, and at every point the inputs hold their blocks. -/
theorem body_obligation7 (c : Dev nD) : BodyObligation (dat7 (F := F) V c) (defs₀ (F := F)) Variants.none () Set.univ := fun t => by
  rw [bigSep_W7, bigSep_W7, show (dat7 V c).Φ t.succ = (dat7 V c).Φ t.castSucc from rfl,
    show (dat7 V c).owesAt () t.succ = (dat7 V c).owesAt () t.castSucc from rfl]
  simp only [before7_0, before7_1, before7_2, before7_3]
  dsimp only [dat7, out7_4]
  show _ ⊢ wp _ _ _ (combSkel inb_S5000x64_S5000x64_0_0 inb_S5000x1_S5000x1_0_0 inb_S1x64_S1x64_0_0 h_S5000x64 h_S5000x1 h_S1x64 k7_pay1 _ _ _ _ _) _
  iintro ⟨HΦ, Ho, ⟨%d0, H0⟩, ⟨%d1, H1⟩, ⟨%d2, H2⟩, ⟨%d3, H3⟩, ⟨%d4, H4⟩⟩
  iapply (combine_triple Cert.LibWhole.off2_zero c Set.univ (iblk7 V c 0 t) (iblk7 V c 1 t) (iblk7 V c 2 t) (iblk7 V c 3 t) _)
  iframe
  isplitl [H4]; · iexists _; iexact H4
  iintro ⟨H0, H1, H2, H3, H4⟩
  iframe

end Cert.Kernel.Hand
-- ==== Proof.K.Reg8Defs.lean ====
import proofs.«135318_j56487409877354_1_alg».proof.Proof.Gen.Kernel.Launch
import proofs.«135318_j56487409877354_1_alg».proof.Proof.Gen.Kernel.Skeleton
import proofs.«135318_j56487409877354_1_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : (n : ℕ) → n < cfg8.N → Vec F S64x64 .f32
  | 0, h => k8_pay2 (iblk8 V c 0 ⟨0, h⟩) (iblk8 V c 1 ⟨0, h⟩) k8_pay1
  | n + 1, h => k8_pay2 (iblk8 V c 0 ⟨n + 1, h⟩) (iblk8 V c 1 ⟨n + 1, h⟩) (acc8 c n (Nat.lt_of_succ_lt h))

/-- The accumulator after a point is the point's product added to the zero fill at the first point and to what the
    point before left at the others. -/
theorem acc8_at (c : Dev nD) (t : Fin cfg8.N) :
    acc8 V c t.val t.isLt = k8_pay2 (iblk8 V c 0 t) (iblk8 V c 1 t)
      (if t.val = 0 then k8_pay1 else acc8 V c (t.val - 1) (Nat.lt_of_le_of_lt (Nat.sub_le _ _) t.isLt)) := by
  obtain ⟨_ | n, hn⟩ := t <;> rfl

def out8_5 (c : Dev nD) : Vec F S64x4 .f32 :=
  k8_pay3 (acc8 V c 19 (by decide)) (iblk8 V c 2 ⟨19, by decide⟩) (iblk8 V c 3 ⟨19, by decide⟩) (iblk8 V c 4 ⟨19, by decide⟩)

def PhiS8 (c : Dev nD) : (n : ℕ) → n ≤ cfg8.N → sProp 𝕄
  | 0, _ => Pipeline.ΦA spec8 c
  | n + 1, hn => iprop(owns (c : Thread nD τ) (Memref.whole cc8_scratch0) fullShare (acc8 V c n hn)
      ∗ Pipeline.scopedRestBut spec8 c [cc8_scratch0] ∗ ∃ r, prngReg c r)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 V c
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

end Cert.Kernel.Hand

end
-- ==== Proof.K.Reg8Runs.lean ====
import proofs.«135318_j56487409877354_1_alg».proof.Proof.Gen.Kernel.Launch
import proofs.«135318_j56487409877354_1_alg».proof.Proof.Gen.Kernel.Skeleton
import proofs.«135318_j56487409877354_1_alg».proof.Proof.Gen.Kernel.Points
import proofs.«135318_j56487409877354_1_alg».proof.Proof.LibWhole
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibWhole

variable {F : FTy → Type} [FloatOps F]

local notation "𝕄" => MT nD τ sig Unit (Elt F) ℕ (UR sig nD τ) ℕ

abbrev cond8_1 (i : grid8.Coords) : Prop :=
  (Scalar.cmpi .ne (Scalar.extui (Scalar.cmpi .eq (BitVec.ofNat 32 (i 0).val) 0#32)) 0#32) = 1#1
abbrev cond8_2 (i : grid8.Coords) : Prop := k8_cond2 i = 1#1

/-- The first test holds at point 0 only, the second at point 19 only. -/
theorem hcond8 : ∀ t : Fin cfg8.N, (cond8_1 (grid8.coords t) ↔ t.val = 0) ∧ (cond8_2 (grid8.coords t) ↔ t.val = 19) :=
  (by decide +kernel : ∀ t : Fin grid8.N, _)

theorem idle8_5 : ∀ t : Fin cfg8.N, (cond8_2 (grid8.coords t) → cfg8.idle 5 (grid8.coords t) = false)
    ∧ (¬cond8_2 (grid8.coords t) → cfg8.idle 5 (grid8.coords t) = true ∧ (cfg8.win 5).flush t = false) := by decide +kernel

set_option maxHeartbeats 1000000 in
/-- The body on whole buffers: the scratch, reset first when the point is the first, gains the point's pooling
    product; when the point is the last the output's buffer receives the head of the new scratch. -/
theorem sound_kernel8 (c : Dev nD) (E : Set ℕ) (i : grid8.Coords)
    (arg1 : Memref sig .tc .vmem S5000x1 .i32) (harg1 : arg1.IsWhole) (arg2 : Memref sig .tc .vmem S5000x64 .f32) (harg2 : arg2.IsWhole)
    (arg3 : Memref sig .tc .vmem S64x1 .f32) (harg3 : arg3.IsWhole) (arg4 : Memref sig .tc .vmem S64x4 .f32) (harg4 : arg4.IsWhole)
    (arg5 : Memref sig .tc .vmem S1x4 .f32) (harg5 : arg5.IsWhole) (arg6 : Memref sig .tc .vmem S64x4 .f32) (harg6 : arg6.IsWhole)
    (arg7 : Memref sig .tc .vmem S64x64 .f32) (harg7 : arg7.IsWhole)
    (x0 : Vec F S5000x1 .i32) (x1 : Vec F S5000x64 .f32) (x2 : Vec F S64x1 .f32) (x3 : Vec F S64x4 .f32) (x4 : Vec F S1x4 .f32)
    (d : Vec F S64x4 .f32) (s : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare d
        ∗ owns (c : Thread nD τ) arg7 fullShare s
        ∗ (iprop(owns (c : Thread nD τ) arg6 fullShare
                (if cond8_2 i then k8_pay3 (k8_pay2 x0 x1 (if cond8_1 i then k8_pay1 else s)) x2 x3 x4 else d)
            ∗ owns (c : Thread nD τ) arg7 fullShare (k8_pay2 x0 x1 (if cond8_1 i then k8_pay1 else s))
            ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4) -∗ K ⟨⟩))
      ⊢ wp frame (wpE (defs₀ (F := F)) Variants.none c none) E
          (cc8__pool_kernel i arg1 harg1 arg2 harg2 arg3 harg3 arg4 harg4 arg5 harg5 arg6 harg6 arg7 harg7) K := by
  simp only [cc8__pool_kernel_eq_skeleton]; unfold cc8__pool_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0 hf1 hf2 hf3 hf4 hf5 hfs
  by_cases hc1 : cond8_1 i <;> by_cases hc2 : cond8_2 i
  all_goals
    sl_exec (disch := first | exact hc1 | exact hc2)
    sl_step
    iapply Hk
    isplitl [H5]
    · iexists _; isplitr
      swap; · iexact H5
      ipureintro
      try sl_unfold_run_names
      repeat first | rw [read_writes_unit_zero _ off2_zero] | rw [readAt_unit_zero _ off2_zero] | rw [readCov_unit_zero _ off2_zero] | rw [if_pos hc2] | rw [if_neg hc2] | rw [if_pos hc1] | rw [if_neg hc1]
    isplitl [HS]
    · iexists _; isplitr
      swap; · iexact HS
      ipureintro
      try sl_unfold_run_names
      repeat first | rw [read_writes_unit_zero _ off2_zero] | rw [readAt_unit_zero _ off2_zero] | rw [readCov_unit_zero _ off2_zero] | rw [if_pos hc1] | rw [if_neg hc1]
    sl_close

end Cert.Kernel.Hand

end
-- ==== Proof.K.Reg8.lean ====
import proofs.«135318_j56487409877354_1_alg».proof.Proof.K.Reg8Defs
import proofs.«135318_j56487409877354_1_alg».proof.Proof.K.Reg8Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before8 (c : Dev nD) (t : Fin cfg8.N) :
    (∀ d, (dat8 V c).before 0 t d = iblk8 V c 0 t) ∧ (∀ d, (dat8 V c).before 1 t d = iblk8 V c 1 t)
    ∧ (∀ d, (dat8 V c).before 2 t d = iblk8 V c 2 t) ∧ (∀ d, (dat8 V c).before 3 t d = iblk8 V c 3 t)
    ∧ (∀ d, (dat8 V c).before 4 t d = iblk8 V c 4 t) := by
  refine ⟨?_, ?_, ?_, ?_, ?_⟩ <;> intro d <;>
    refine ((dat8 V c).before_in_eq_fetched _ rfl (fun _ => rfl) (fun _ _ _ => rfl) (fun t => ?_) t d).trans ?_
  all_goals first
    | (rw [show (dat8 V c).after _ t = iblk8 V c _ t by dsimp only [dat8]]; unfold Dat.blockOf iblk8; rw [A_eq8])
    | (unfold Dat.fetched Dat.blockOf iblk8; rw [A_eq8]; try rfl)

theorem leaves8 (c : Dev nD) (t : Fin cfg8.N) :
    (dat8 V c).leavesExact 0 t = owns (c : Thread nD τ) (st8_0 t) fullShare (iblk8 V c 0 t)
    ∧ (dat8 V c).leavesExact 1 t = owns (c : Thread nD τ) (st8_1 t) fullShare (iblk8 V c 1 t)
    ∧ (dat8 V c).leavesExact 2 t = owns (c : Thread nD τ) (st8_2 t) fullShare (iblk8 V c 2 t)
    ∧ (dat8 V c).leavesExact 3 t = owns (c : Thread nD τ) (st8_3 t) fullShare (iblk8 V c 3 t)
    ∧ (dat8 V c).leavesExact 4 t = owns (c : Thread nD τ) (st8_4 t) fullShare (iblk8 V c 4 t) :=
  ⟨rfl, rfl, rfl, rfl, rfl⟩

theorem PhiA8_eq (c : Dev nD) :
    (Pipeline.ΦA spec8 c : sProp 𝕄)
      = iprop(iprop(iprop(∃ d, owns (c : Thread nD τ) (Memref.whole cc8_scratch0) fullShare d)
          ∗ Pipeline.scopedRestBut spec8 c [cc8_scratch0]) ∗ (∃ r, prngReg c r)) := by
  unfold Pipeline.ΦA; rw [scopedRest8_split]; simp only [owns_whole]; try rfl

/-- Before a point the invariant holds the scratch at some contents: at the first point any, at a later point the
    accumulator the point before left. -/
theorem PhiS8_open (c : Dev nD) (n : ℕ) (h : n ≤ cfg8.N) :
    PhiS8 V c n h ⊢ iprop(∃ s, ⌜∀ h0 : n ≠ 0, s = acc8 V c (n - 1) (by omega)⌝
      ∗ owns (c : Thread nD τ) (Memref.whole cc8_scratch0) fullShare s ∗ Pipeline.scopedRestBut spec8 c [cc8_scratch0] ∗ ∃ r, prngReg c r) := by
  cases n with
  | zero =>
    show Pipeline.ΦA spec8 c ⊢ _
    rw [PhiA8_eq]
    iintro ⟨⟨⟨%s, HS⟩, HR⟩, Hg⟩
    iexists s; isplitr; · ipureintro; exact fun h => absurd rfl h
    iframe
  | succ n =>
    show iprop(owns (c : Thread nD τ) (Memref.whole cc8_scratch0) fullShare (acc8 V c n h)
      ∗ Pipeline.scopedRestBut spec8 c [cc8_scratch0] ∗ ∃ r, prngReg c r) ⊢ _
    iintro H
    iexists _; isplitr; swap; · iexact H
    ipureintro; exact fun _ => rfl

/-- The output's buffer after a point: at the last point the head of the new accumulator, elsewhere as found. -/
theorem leaves8_5 (c : Dev nD) (t : Fin cfg8.N) (d) :
    owns (c : Thread nD τ) (st8_5 t) fullShare
        (if cond8_2 (grid8.coords t) then k8_pay3 (acc8 V c t.val t.isLt) (iblk8 V c 2 t) (iblk8 V c 3 t) (iblk8 V c 4 t)
          else (dat8 V c).before 5 t d)
      ⊢ (dat8 V c).leavesExact 5 t := by
  by_cases hc2 : cond8_2 (grid8.coords t)
  · rw [if_pos hc2]; unfold Dat.leavesExact; rw [(idle8_5 t).1 hc2]
    obtain ⟨n, hn⟩ := t
    obtain rfl : n = 19 := ((hcond8 ⟨n, hn⟩).2).1 hc2
    exact .rfl
  · rw [if_neg hc2, Dat.leavesExact_idle (dat8 V c) 5 t ((idle8_5 t).2 hc2).1 ((idle8_5 t).2 hc2).2]
    iintro H; iexists d; iexact H

/-- The body at any point: the inputs' buffers hold their blocks, the invariant lends the scratch and takes it back at
    this point's accumulator; everything else passes through. -/
theorem sound_body8 (c : Dev nD) (t : Fin cfg8.N) :
    iprop((dat8 V c).Φ t.castSucc ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d))
      ∗ (∃ d, owns (c : Thread nD τ) (st8_3 t) fullShare ((dat8 V c).before 3 t d))
      ∗ (∃ d, owns (c : Thread nD τ) (st8_4 t) fullShare ((dat8 V c).before 4 t d))
      ∗ (∃ d, owns (c : Thread nD τ) (st8_5 t) fullShare ((dat8 V c).before 5 t d)))
    ⊢ wp frame (wpE (defs₀ (F := F)) Variants.none c none) Set.univ (bodyAt8 t) (fun _ =>
        iprop((dat8 V c).Φ t.succ ∗ (dat8 V c).owesAt () t.succ
          ∗ (dat8 V c).leavesExact 0 t ∗ (dat8 V c).leavesExact 1 t ∗ (dat8 V c).leavesExact 2 t
          ∗ (dat8 V c).leavesExact 3 t ∗ (dat8 V c).leavesExact 4 t ∗ (dat8 V c).leavesExact 5 t)) := by
  unfold bodyAt8
  obtain ⟨b0, b1, b2, b3, b4⟩ := before8 V c t
  obtain ⟨l0, l1, l2, l3, l4⟩ := leaves8 V c t
  simp only [b0, b1, b2, b3, b4]
  rw [l0, l1, l2, l3, l4, show (dat8 V c).owesAt () t.succ = (dat8 V c).owesAt () t.castSucc from rfl,
    show (dat8 V c).Φ t.succ = iprop(owns (c : Thread nD τ) (Memref.whole cc8_scratch0) fullShare (acc8 V c t.val t.isLt)
      ∗ Pipeline.scopedRestBut spec8 c [cc8_scratch0] ∗ ∃ r, prngReg c r) from rfl,
    show (dat8 V c).Φ t.castSucc = PhiS8 V c t.val (Nat.le_of_lt t.isLt) from rfl]
  have hacc : ∀ s, (∀ h0 : t.val ≠ 0, s = acc8 V c (t.val - 1) (by omega)) →
      k8_pay2 (iblk8 V c 0 t) (iblk8 V c 1 t) (if cond8_1 (grid8.coords t) then k8_pay1 else s) = acc8 V c t.val t.isLt := fun s hs => by
    rw [acc8_at, if_congr (hcond8 t).1 rfl rfl]
    by_cases h0 : t.val = 0
    · rw [if_pos h0, if_pos h0]
    · rw [if_neg h0, if_neg h0, hs h0]
  iintro ⟨HΦ, Ho, ⟨%d0, H0⟩, ⟨%d1, H1⟩, ⟨%d2, H2⟩, ⟨%d3, H3⟩, ⟨%d4, H4⟩, ⟨%d5, H5⟩⟩
  ihave HΦ' := (PhiS8_open V c t.val (Nat.le_of_lt t.isLt)) $$ HΦ
  icases HΦ' with ⟨%s, %hs, HS, HR, Hg⟩
  iapply (sound_kernel8 c Set.univ (grid8.coords t) _ _ _ _ _ _ _ _ _ _ _ _ _ _
    (iblk8 V c 0 t) (iblk8 V c 1 t) (iblk8 V c 2 t) (iblk8 V c 3 t) (iblk8 V c 4 t) _ s _)
  rw [hacc s hs]
  iframe H0 H1 H2 H3 H4 H5 HS
  iintro ⟨H5, HS, H0, H1, H2, H3, H4⟩
  iframe HS HR Hg Ho H0 H1 H2 H3 H4
  iapply (leaves8_5 V c t d5); iexact H5

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 (F := F) V c).Φ 0 := .rfl

theorem hout8 (c : Dev nD) : (dat8 (F := F) V c).Φ (Fin.last cfg8.N) ⊢ Pipeline.ΦA spec8 c := by
  refine BIBase.Entails.trans (PhiS8_open V c (Fin.last cfg8.N).val (Fin.last cfg8.N).is_le) ?_
  rw [PhiA8_eq]
  iintro ⟨%s, -, HS, HR, Hg⟩
  iframe HR Hg
  iexists _; iexact HS

end Cert.Kernel.Hand

end
-- ==== Proof.LibRegion.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.FrameBody
import Idealize.ShloMosaic.Lib.Tactic

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Λ₀ : Labels} {F : FTy → Type} [FloatOps F] {n : ℕ}
  (cfgs : Fin n → Pipeline.Cfg sig Λ₀)

local notation "𝕄" => MT nD τ sig Unit (Elt F) ℕ (UR sig nD τ) ℕ

abbrev VV (P : Dev nD → Valuation τ sig (Elt F)) : (c : Dev nD) → (b : Ref sig .tc) → Buf (Elt F) ((c : Thread nD τ).loc b) := fun c b => P c b

section Step

variable {p : Fin n} (dat : (c : Dev nD) → Dat τ (Elt F) Unit ℕ (UR sig nD τ) ℕ (cfgs p) c) (P : Dev nD → Valuation τ sig (Elt F))

/-- What region `p` leaves: its windows' arrays at their final contents, every other buffer as entered. -/
def step (c : Dev nD) : Valuation τ sig (Elt F) :=
  Pipeline.withArrays (cfgs p).spec c (P c) fun w => (dat c).arrAt w (cfgs p).N

theorem step_arr (hinj : Function.Injective (Pipeline.arrRef (cfgs p).spec)) (c : Dev nD) (w : Fin (cfgs p).W) :
    step cfgs dat P c (Proc.devRef .tc (Pipeline.arrRef (cfgs p).spec w)) = (dat c).arrAt w (cfgs p).N :=
  Pipeline.withArrays_arr _ hinj c _ _ w

theorem step_of_ne (c : Dev nD) (b : Ref sig .tc) (hb : ∀ w, Pipeline.arrRef (cfgs p).spec w ≠ b) :
    step cfgs dat P c (Proc.devRef .tc b) = P c (Proc.devRef .tc b) :=
  Pipeline.withArrays_of_ne _ c _ _ b hb

/-- Only window `o` is an output, so every buffer but its array ends as entered. -/
theorem step_keep (hinj : Function.Injective (Pipeline.arrRef (cfgs p).spec))
    (hA : ∀ c w, (dat c).A w = VV P c (Pipeline.arrRef (cfgs p).spec w)) (o : Fin (cfgs p).W)
    (ho : ∀ w, w ≠ o → ((cfgs p).win w).isOut = false) (c : Dev nD) (b : Ref sig .tc)
    (hb : b ≠ Pipeline.arrRef (cfgs p).spec o) : step cfgs dat P c (Proc.devRef .tc b) = P c (Proc.devRef .tc b) := by
  by_cases h : ∃ w, Pipeline.arrRef (cfgs p).spec w = b
  · obtain ⟨w, rfl⟩ := h
    rw [step_arr cfgs dat P hinj]
    exact ((dat c).arrAt_in w (ho w fun e => hb (e ▸ rfl)) _).trans (hA c w)
  · exact step_of_ne cfgs dat P c b fun w e => h ⟨w, e⟩

end Step

abbrev pcsOf : Fin n → Pipeline.PCfg sig Λ₀ (Elt F) := fun p => (cfgs p).toPCfg
abbrev admOf : (p : Fin n) → (pcsOf (F := F) cfgs p).Adm := fun p => (cfgs p).toPCfg_adm
abbrev L : GSem nD τ sig → Finset Unit := fun _ => ∅
abbrev lv : GSem nD τ sig → Unit → ℕ := fun _ _ => 0
/-- What rides beside the buffers through every segment: the generator register at some state, the core owing nothing. -/
abbrev R (c : Dev nD) : sProp 𝕄 := iprop((∃ r, prngReg c r) ∗ ∃ W, owes (c : Thread nD τ) (0 : CellTallies nD τ sig Unit) W)

variable (pdats : (p : Fin n) → (c : Dev nD) → Dat τ (Elt F) Unit ℕ (UR sig nD τ) ℕ (cfgs p) c) (defs₀ : Defs nD τ sig (Elt F) Λ₀)

set_option backward.isDefEq.respectTransparency.types false in
/-- A region as a segment of the run: entered with every unscoped buffer at `P`, left with them at `step`; its proof data
    hold full shares, owe nothing and keep the class's invariant, and their arrays are `P`'s. -/
def mkReg (p : Fin n) (P : Dev nD → Valuation τ sig (Elt F)) (launch : Pipeline.LaunchFacts (nD := nD) (τ := τ) cfgs p)
    (hbody : ∀ c, BodyObligation (pdats p c) (defs₀) Variants.none () Set.univ)
    (hq : ∀ c w, (pdats p c).q w = fullShare) (howed : ∀ c t, (pdats p c).owed t = 0)
    (hrec : ∀ c t, (pdats p c).recorded t = Set.univ)
    (hA : ∀ c w, (pdats p c).A w = VV P c (Pipeline.arrRef (cfgs p).spec w))
    (hinΦ : ∀ c, Pipeline.ΦA (cfgs p).spec c ⊢ (pdats p c).Φ 0)
    (houtΦ : ∀ c, (pdats p c).Φ (Fin.last (cfgs p).N) ⊢ Pipeline.ΦA (cfgs p).spec c) :
    Pipeline.RegionSeg (pcsOf cfgs) (admOf cfgs) pdats () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (P c) ∗ R c)
  post c := iprop(StableHlo.held (c : Thread nD τ) (Pipeline.ucRefs τ sig) (step cfgs (pdats p) P c) ∗ R c)
  X c := iprop(∃ r, prngReg c r)
  Y c := iprop(∃ r, prngReg c r)
  Z c := Pipeline.unscopedRest (Ix := Unit) (Name := ℕ) (U := UR sig nD τ) (Lvl := ℕ) (cfgs p).spec c (VV P c)
  hentry c := by
    rw [Pipeline.ownSems0_none]
    have hsplit := Pipeline.arrays_of_unscopedBufs (p := p) (pcsOf cfgs) (admOf cfgs) pdats launch.win launch.arr_whole c
      ((pdats p c).share_full (hq c)) (VV P c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec]; trivial)
      iexact HO
    isplitl [Hp]; · iexact Hp
    iexact Hrest
  hin c := by
    refine BIBase.Entails.trans ?_ (hinΦ c); unfold Pipeline.ΦA
    iintro ⟨Hp, -, Hr⟩
    isplitl [Hr]; · iexact Hr
    iexact Hp
  hout c := by
    rw [Pipeline.ownSems0_none]; refine BIBase.Entails.trans (houtΦ c) ?_; unfold Pipeline.ΦA
    iintro ⟨Hr, Hp⟩
    isplitl [Hp]; · iexact Hp
    isplitr; · iempintro
    iexact Hr
  hexit c := by
    have hjoin := Pipeline.unscopedBufs_of_arrays (p := p) (pcsOf cfgs) (admOf cfgs) (Ix := Unit) (Name := ℕ) (U := UR sig nD τ) (Lvl := ℕ)
      launch.win launch.arr_whole c pdats ((pdats p c).share_full (hq c))
      (VV P c) (VV (step cfgs (pdats p) P) c) ((pdats p c).arrAt · (cfgs p).N)
      (fun w => (step_arr cfgs (pdats p) P launch.win.arr_inj c w).symm)
      (fun b hb => step_of_ne cfgs (pdats p) P c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Cert.LibRegion

end
-- ==== Proof.K.Run.lean ====
import proofs.«135318_j56487409877354_1_alg».proof.Proof.K.Reg0
import proofs.«135318_j56487409877354_1_alg».proof.Proof.K.Reg1
import proofs.«135318_j56487409877354_1_alg».proof.Proof.K.Reg2
import proofs.«135318_j56487409877354_1_alg».proof.Proof.K.Reg3
import proofs.«135318_j56487409877354_1_alg».proof.Proof.K.Reg4
import proofs.«135318_j56487409877354_1_alg».proof.Proof.K.Reg5
import proofs.«135318_j56487409877354_1_alg».proof.Proof.K.Reg6
import proofs.«135318_j56487409877354_1_alg».proof.Proof.K.Reg7
import proofs.«135318_j56487409877354_1_alg».proof.Proof.K.Reg8
import proofs.«135318_j56487409877354_1_alg».proof.Proof.Gen.Kernel.Regions
import proofs.«135318_j56487409877354_1_alg».proof.Proof.LibRegion

noncomputable section

namespace Cert.Kernel.Hand

open Cert.Kernel Cert.Kernel.Gen Cert.LibRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

export Cert.LibRegion (VV)

variable (m : (ℓ : Loc nD τ sig) → Buf (Elt F) ℓ) (ρ : Dev nD → PrngReg)

/-! The buffers' contents between the items of @main: at launch, after each host stretch, after each region. -/

abbrev P0 : Dev nD → Valuation τ sig (Elt F) := fun c b => (s₀ m ρ).mem ((c : Dev nD), b)
abbrev P1 : Dev nD → Valuation τ sig (Elt F) := fun c => StableHlo.after hostOps0 (P0 m ρ c)
def P2 : Dev nD → Valuation τ sig (Elt F) := step cfgs (p := 0) (dat0 (VV (P1 m ρ))) (P1 m ρ)
abbrev P3 : Dev nD → Valuation τ sig (Elt F) := fun c => StableHlo.after hostOps1 (P2 m ρ c)
def P4 : Dev nD → Valuation τ sig (Elt F) := step cfgs (p := 1) (dat1 (VV (P3 m ρ))) (P3 m ρ)
def P5 : Dev nD → Valuation τ sig (Elt F) := step cfgs (p := 2) (dat2 (VV (P4 m ρ))) (P4 m ρ)
abbrev P6 : Dev nD → Valuation τ sig (Elt F) := fun c => StableHlo.after hostOps3 (P5 m ρ c)
def P7 : Dev nD → Valuation τ sig (Elt F) := step cfgs (p := 3) (dat3 (VV (P6 m ρ))) (P6 m ρ)
def P8 : Dev nD → Valuation τ sig (Elt F) := step cfgs (p := 4) (dat4 (VV (P7 m ρ))) (P7 m ρ)
abbrev P9 : Dev nD → Valuation τ sig (Elt F) := fun c => StableHlo.after hostOps5 (P8 m ρ c)
def P10 : Dev nD → Valuation τ sig (Elt F) := step cfgs (p := 5) (dat5 (VV (P9 m ρ))) (P9 m ρ)
def P11 : Dev nD → Valuation τ sig (Elt F) := step cfgs (p := 6) (dat6 (VV (P10 m ρ))) (P10 m ρ)
abbrev P12 : Dev nD → Valuation τ sig (Elt F) := fun c => StableHlo.after hostOps7 (P11 m ρ c)
def P13 : Dev nD → Valuation τ sig (Elt F) := step cfgs (p := 7) (dat7 (VV (P12 m ρ))) (P12 m ρ)
abbrev P14 : Dev nD → Valuation τ sig (Elt F) := fun c => StableHlo.after hostOps8 (P13 m ρ c)
def P15 : Dev nD → Valuation τ sig (Elt F) := step cfgs (p := 8) (dat8 (VV (P14 m ρ))) (P14 m ρ)

theorem P2_arr (c : Dev nD) (w : Fin cfg0.W) :
    P2 m ρ c (Proc.devRef .tc (Pipeline.arrRef spec0 w)) = (dat0 (VV (P1 m ρ)) c).arrAt w cfg0.N :=
  step_arr cfgs (p := 0) _ _ launch0.win.arr_inj c w
theorem P2_keep (c : Dev nD) (b : Ref sig .tc) (hb : b ≠ main_v13) : P2 m ρ c (Proc.devRef .tc b) = P1 m ρ c (Proc.devRef .tc b) :=
  step_keep cfgs (p := 0) _ _ launch0.win.arr_inj (A_eq0 _) (2 : Fin cfg0.W) (by decide) c b hb
theorem P4_arr (c : Dev nD) (w : Fin cfg1.W) :
    P4 m ρ c (Proc.devRef .tc (Pipeline.arrRef spec1 w)) = (dat1 (VV (P3 m ρ)) c).arrAt w cfg1.N :=
  step_arr cfgs (p := 1) _ _ launch1.win.arr_inj c w
theorem P4_keep (c : Dev nD) (b : Ref sig .tc) (hb : b ≠ main_v44) : P4 m ρ c (Proc.devRef .tc b) = P3 m ρ c (Proc.devRef .tc b) :=
  step_keep cfgs (p := 1) _ _ launch1.win.arr_inj (A_eq1 _) (4 : Fin cfg1.W) (by decide) c b hb
theorem P5_arr (c : Dev nD) (w : Fin cfg2.W) :
    P5 m ρ c (Proc.devRef .tc (Pipeline.arrRef spec2 w)) = (dat2 (VV (P4 m ρ)) c).arrAt w cfg2.N :=
  step_arr cfgs (p := 2) _ _ launch2.win.arr_inj c w
theorem P5_keep (c : Dev nD) (b : Ref sig .tc) (hb : b ≠ main_v45) : P5 m ρ c (Proc.devRef .tc b) = P4 m ρ c (Proc.devRef .tc b) :=
  step_keep cfgs (p := 2) _ _ launch2.win.arr_inj (A_eq2 _) (2 : Fin cfg2.W) (by decide) c b hb
theorem P7_arr (c : Dev nD) (w : Fin cfg3.W) :
    P7 m ρ c (Proc.devRef .tc (Pipeline.arrRef spec3 w)) = (dat3 (VV (P6 m ρ)) c).arrAt w cfg3.N :=
  step_arr cfgs (p := 3) _ _ launch3.win.arr_inj c w
theorem P7_keep (c : Dev nD) (b : Ref sig .tc) (hb : b ≠ main_v76) : P7 m ρ c (Proc.devRef .tc b) = P6 m ρ c (Proc.devRef .tc b) :=
  step_keep cfgs (p := 3) _ _ launch3.win.arr_inj (A_eq3 _) (4 : Fin cfg3.W) (by decide) c b hb
theorem P8_arr (c : Dev nD) (w : Fin cfg4.W) :
    P8 m ρ c (Proc.devRef .tc (Pipeline.arrRef spec4 w)) = (dat4 (VV (P7 m ρ)) c).arrAt w cfg4.N :=
  step_arr cfgs (p := 4) _ _ launch4.win.arr_inj c w
theorem P8_keep (c : Dev nD) (b : Ref sig .tc) (hb : b ≠ main_v77) : P8 m ρ c (Proc.devRef .tc b) = P7 m ρ c (Proc.devRef .tc b) :=
  step_keep cfgs (p := 4) _ _ launch4.win.arr_inj (A_eq4 _) (2 : Fin cfg4.W) (by decide) c b hb
theorem P10_arr (c : Dev nD) (w : Fin cfg5.W) :
    P10 m ρ c (Proc.devRef .tc (Pipeline.arrRef spec5 w)) = (dat5 (VV (P9 m ρ)) c).arrAt w cfg5.N :=
  step_arr cfgs (p := 5) _ _ launch5.win.arr_inj c w
theorem P10_keep (c : Dev nD) (b : Ref sig .tc) (hb : b ≠ main_v108) : P10 m ρ c (Proc.devRef .tc b) = P9 m ρ c (Proc.devRef .tc b) :=
  step_keep cfgs (p := 5) _ _ launch5.win.arr_inj (A_eq5 _) (4 : Fin cfg5.W) (by decide) c b hb
theorem P11_arr (c : Dev nD) (w : Fin cfg6.W) :
    P11 m ρ c (Proc.devRef .tc (Pipeline.arrRef spec6 w)) = (dat6 (VV (P10 m ρ)) c).arrAt w cfg6.N :=
  step_arr cfgs (p := 6) _ _ launch6.win.arr_inj c w
theorem P11_keep (c : Dev nD) (b : Ref sig .tc) (hb : b ≠ main_v109) : P11 m ρ c (Proc.devRef .tc b) = P10 m ρ c (Proc.devRef .tc b) :=
  step_keep cfgs (p := 6) _ _ launch6.win.arr_inj (A_eq6 _) (2 : Fin cfg6.W) (by decide) c b hb
theorem P13_arr (c : Dev nD) (w : Fin cfg7.W) :
    P13 m ρ c (Proc.devRef .tc (Pipeline.arrRef spec7 w)) = (dat7 (VV (P12 m ρ)) c).arrAt w cfg7.N :=
  step_arr cfgs (p := 7) _ _ launch7.win.arr_inj c w
theorem P13_keep (c : Dev nD) (b : Ref sig .tc) (hb : b ≠ main_v140) : P13 m ρ c (Proc.devRef .tc b) = P12 m ρ c (Proc.devRef .tc b) :=
  step_keep cfgs (p := 7) _ _ launch7.win.arr_inj (A_eq7 _) (4 : Fin cfg7.W) (by decide) c b hb
theorem P15_arr (c : Dev nD) (w : Fin cfg8.W) :
    P15 m ρ c (Proc.devRef .tc (Pipeline.arrRef spec8 w)) = (dat8 (VV (P14 m ρ)) c).arrAt w cfg8.N :=
  step_arr cfgs (p := 8) _ _ launch8.win.arr_inj c w
theorem P15_keep (c : Dev nD) (b : Ref sig .tc) (hb : b ≠ main_v152) : P15 m ρ c (Proc.devRef .tc b) = P14 m ρ c (Proc.devRef .tc b) :=
  step_keep cfgs (p := 8) _ _ launch8.win.arr_inj (A_eq8 _) (5 : Fin cfg8.W) (by decide) c b hb

/-- A buffer no host stretch writes and no region has for its output ends as launched. -/
theorem P15_launch (c : Dev nD) (b : Ref sig .tc) (h0 : b ∉ hostOps0_W) (h1 : b ∉ hostOps1_W) (h3 : b ∉ hostOps3_W) (h5 : b ∉ hostOps5_W) (h7 : b ∉ hostOps7_W) (h8 : b ∉ hostOps8_W)
    (hne : b ∉ ([main_v13, main_v44, main_v45, main_v76, main_v77, main_v108, main_v109, main_v140, main_v152] : List (Ref sig .tc))) :
    P15 m ρ c (Proc.devRef .tc b) = m ((c : Thread nD τ).loc b) := by
  have hn : ∀ x ∈ ([main_v13, main_v44, main_v45, main_v76, main_v77, main_v108, main_v109, main_v140, main_v152] : List (Ref sig .tc)), b ≠ x := fun x hx e => hne (e ▸ hx)
  exact (P15_keep m ρ c b (hn _ (by simp))).trans <| (StableHlo.after_of_writes_sub hostOps8 _ hostOps8_writes h8).trans <| (P13_keep m ρ c b (hn _ (by simp))).trans <| (StableHlo.after_of_writes_sub hostOps7 _ hostOps7_writes h7).trans <| (P11_keep m ρ c b (hn _ (by simp))).trans <| (P10_keep m ρ c b (hn _ (by simp))).trans <| (StableHlo.after_of_writes_sub hostOps5 _ hostOps5_writes h5).trans <| (P8_keep m ρ c b (hn _ (by simp))).trans <| (P7_keep m ρ c b (hn _ (by simp))).trans <| (StableHlo.after_of_writes_sub hostOps3 _ hostOps3_writes h3).trans <| (P5_keep m ρ c b (hn _ (by simp))).trans <| (P4_keep m ρ c b (hn _ (by simp))).trans <| (StableHlo.after_of_writes_sub hostOps1 _ hostOps1_writes h1).trans <| (P2_keep m ρ c b (hn _ (by simp))).trans <| (StableHlo.after_of_writes_sub hostOps0 _ hostOps0_writes h0).trans rfl

/-- Every pipeline's proof data, each at its region's entry contents. -/
def pdats : (p : Fin 9) → (c : Dev nD) → Dat τ (Elt F) Unit ℕ (UR sig nD τ) ℕ (cfgs p) c
  | ⟨0, _⟩ => dat0 (VV (P1 m ρ))
  | ⟨1, _⟩ => dat1 (VV (P3 m ρ))
  | ⟨2, _⟩ => dat2 (VV (P4 m ρ))
  | ⟨3, _⟩ => dat3 (VV (P6 m ρ))
  | ⟨4, _⟩ => dat4 (VV (P7 m ρ))
  | ⟨5, _⟩ => dat5 (VV (P9 m ρ))
  | ⟨6, _⟩ => dat6 (VV (P10 m ρ))
  | ⟨7, _⟩ => dat7 (VV (P12 m ρ))
  | ⟨8, _⟩ => dat8 (VV (P14 m ρ))
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev segs : List (Pipeline.Seg (pcfgs (F := F)) adm (pdats m ρ) () defs₀ Variants.none L lv) :=
  [ .host (hseg hostOps0 hostOps0_sub hostOps0_fresh (P0 m ρ)),
    .region (mkReg cfgs (pdats m ρ) defs₀ 0 (P1 m ρ) launch0 (body_obligation0 _) (fun _ _ => rfl) (fun _ _ => rfl) (fun _ _ => rfl) (A_eq0 _) (fun _ => .rfl) (fun _ => .rfl)),
    .host (hseg hostOps1 hostOps1_sub hostOps1_fresh (P2 m ρ)),
    .region (mkReg cfgs (pdats m ρ) defs₀ 1 (P3 m ρ) launch1 (body_obligation1 _) (fun _ _ => rfl) (fun _ _ => rfl) (fun _ _ => rfl) (A_eq1 _) (fun _ => .rfl) (fun _ => .rfl)),
    .region (mkReg cfgs (pdats m ρ) defs₀ 2 (P4 m ρ) launch2 (body_obligation2 _) (fun _ _ => rfl) (fun _ _ => rfl) (fun _ _ => rfl) (A_eq2 _) (fun _ => .rfl) (fun _ => .rfl)),
    .host (hseg hostOps3 hostOps3_sub hostOps3_fresh (P5 m ρ)),
    .region (mkReg cfgs (pdats m ρ) defs₀ 3 (P6 m ρ) launch3 (body_obligation3 _) (fun _ _ => rfl) (fun _ _ => rfl) (fun _ _ => rfl) (A_eq3 _) (fun _ => .rfl) (fun _ => .rfl)),
    .region (mkReg cfgs (pdats m ρ) defs₀ 4 (P7 m ρ) launch4 (body_obligation4 _) (fun _ _ => rfl) (fun _ _ => rfl) (fun _ _ => rfl) (A_eq4 _) (fun _ => .rfl) (fun _ => .rfl)),
    .host (hseg hostOps5 hostOps5_sub hostOps5_fresh (P8 m ρ)),
    .region (mkReg cfgs (pdats m ρ) defs₀ 5 (P9 m ρ) launch5 (body_obligation5 _) (fun _ _ => rfl) (fun _ _ => rfl) (fun _ _ => rfl) (A_eq5 _) (fun _ => .rfl) (fun _ => .rfl)),
    .region (mkReg cfgs (pdats m ρ) defs₀ 6 (P10 m ρ) launch6 (body_obligation6 _) (fun _ _ => rfl) (fun _ _ => rfl) (fun _ _ => rfl) (A_eq6 _) (fun _ => .rfl) (fun _ => .rfl)),
    .host (hseg hostOps7 hostOps7_sub hostOps7_fresh (P11 m ρ)),
    .region (mkReg cfgs (pdats m ρ) defs₀ 7 (P12 m ρ) launch7 (body_obligation7 _) (fun _ _ => rfl) (fun _ _ => rfl) (fun _ _ => rfl) (A_eq7 _) (fun _ => .rfl) (fun _ => .rfl)),
    .host (hseg hostOps8 hostOps8_sub hostOps8_fresh (P13 m ρ)),
    .region (mkReg cfgs (pdats m ρ) defs₀ 8 (P14 m ρ) launch8 (body_obligation8 _) (fun _ _ => rfl) (fun _ _ => rfl) (fun _ _ => rfl) (A_eq8 _) (hin8 _) (hout8 _)) ]

set_option backward.isDefEq.respectTransparency.types false in
/-- From any memory with zero counters every weakly fair execution of @main terminates, nothing faulting, and every final
    state holds every unscoped buffer of every core at P15. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = P15 m ρ c b) :=
  Pipeline.θ_run_regions_kit (pcfgs (F := F)) adm (pdats m ρ) () cellOf_inj emb₁ defs₀ Variants.none L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (P0 m ρ c) ∗ R c))
    (Tₙ := fun c => iprop(StableHlo.held (c : Thread nD τ) (Pipeline.ucRefs τ sig) (P15 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (P0 m ρ c)
        from Pipeline.unscopedBufs_held c (P0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = P15 m ρ c b)
    (hfin := fun c s' => by
      iintro ⟨⟨Hh, -⟩, HSI⟩
      unfold StableHlo.held
      imodintro
      iapply (pointsTo_read_all (Pipeline.ucRefs τ sig) (fun b => (((c : Thread nD τ)).1, b)) (P15 m ρ c) s')
      isplitl [Hh] <;> iassumption)
    (hQ := fun s h c => h c)

/-- The result buffer ends at the last region's final contents of its output array, and every argument array as launched. -/
theorem run_main : θ_run defs (onTc (τ := τ) (main (F := F))) ⟨m, fun _ => 0, ρ⟩ (fun r => ∀ c : Dev nD,
      r.2.mem ((c.tc : Thread nD τ).loc main_v152) = (dat8 (VV (P14 m ρ)) c).arrAt 5 cfg8.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    refine ⟨(h c _ (mem_uc main_v152 (by decide))).trans (P15_arr m ρ c 5), ?_, ?_, ?_, ?_, ?_, ?_, ?_, ?_, ?_, ?_, ?_, ?_, ?_⟩ <;>
    exact (h c _ (mem_uc _ (by decide))).trans
      (P15_launch m ρ c _ (by decide) (by decide) (by decide) (by decide) (by decide) (by decide) (by decide)))
    (run_all m ρ)

end Cert.Kernel.Hand

end
-- ==== Proof.KI.Reg0.lean ====
import proofs.«135318_j56487409877354_1_alg».proof.Proof.Gen.KernelIdeal.Launch
import proofs.«135318_j56487409877354_1_alg».proof.Proof.Gen.KernelIdeal.Skeleton
import proofs.«135318_j56487409877354_1_alg».proof.Proof.Gen.KernelIdeal.Points
import proofs.«135318_j56487409877354_1_alg».proof.Proof.LibMatmul
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S5000x8 .f32) (x1 : Vec F S8x8 .f32) : Vec F S5000x8 .f32 :=
  View.canon [⟨Rect.unit ![0, 0] S5000x8.size inb_S5000x8_S5000x8_0_0,
    k0_pay1 (View.ld x0 (Rect.unit ![0, 0] S5000x8.size inb_S5000x8_S5000x8_0_0))
      (View.ld x1 (Rect.unit ![0, 0] S8x8.size inb_S8x8_S8x8_0_0))⟩]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (w : Fin cfg0.W) : (dat0 V c).A w = V c (Pipeline.arrRef spec0 w) := rfl

theorem before0 (t : Fin cfg0.N) :
    (∀ d, (dat0 V c).before 0 t d = iblk0 V c 0 t) ∧ ∀ d, (dat0 V c).before 1 t d = iblk0 V c 1 t :=
  ⟨(dat0 V c).before_in_eq_fetched 0 rfl (fun _ => rfl) (fun _ _ _ => rfl) (fun _ => rfl) t,
    (dat0 V c).before_in_eq_fetched 1 rfl (fun _ => rfl) (fun _ _ _ => rfl) (fun _ => rfl) t⟩

theorem body_obligation0 : BodyObligation (dat0 (F := F) V c) (defs₀ (F := F)) Variants.none () Set.univ := fun t => by
  rw [bigSep_W0, bigSep_W0, show (dat0 V c).owesAt () t.succ = (dat0 V c).owesAt () t.castSucc from rfl]
  simp only [(before0 V c t).1, (before0 V c t).2, show ∀ w i, cfg0.idle w i = false from fun _ _ => rfl]
  dsimp only [dat0]
  show _ ⊢ wp _ _ _ (bodyAt0 t) _
  unfold bodyAt0; rw [cc0__matmul_kernel_eq_skeleton]
  iintro ⟨HΦ, Ho, ⟨%d0, H0⟩, ⟨%d1, H1⟩, ⟨%d2, H2⟩⟩
  iapply (Cert.LibMatmul.sound defs₀ c (st0_0 t) (st0_1 t) (st0_2 t) inb_S5000x8_S5000x8_0_0 inb_S8x8_S8x8_0_0 inb_S5000x8_S5000x8_0_0
    h_S5000x8 h_S8x8 h_S5000x8 k0_pay1 (iblk0 V c 0 t) (iblk0 V c 1 t) (out0_2 (iblk0 V c 0 t) (iblk0 V c 1 t)) rfl _)
  iframe H0 H1
  isplitl [H2]; · iexists _; iexact H2
  iintro ⟨H0, H1, H2⟩
  iframe

end Cert.KernelIdeal.Hand

end
-- ==== Proof.KI.Reg1.lean ====
import proofs.«135318_j56487409877354_1_alg».proof.Proof.Gen.KernelIdeal.Launch
import proofs.«135318_j56487409877354_1_alg».proof.Proof.Gen.KernelIdeal.Skeleton
import proofs.«135318_j56487409877354_1_alg».proof.Proof.Gen.KernelIdeal.Points
import proofs.«135318_j56487409877354_1_alg».proof.Proof.LibCombine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.LibCombine

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x8 := Rect.unit (s := S5000x8) ![0, 0] S5000x8.size inb_S5000x8_S5000x8_0_0
abbrev r1_d : Rect S5000x1 := Rect.unit (s := S5000x1) ![0, 0] S5000x1.size inb_S5000x1_S5000x1_0_0
abbrev r1_b : Rect S1x8 := Rect.unit (s := S1x8) ![0, 0] S1x8.size inb_S1x8_S1x8_0_0

/-- What the body's one store, which covers the output buffer, leaves there. -/
def out1_4 (x0 x1 : Vec F S5000x8 .f32) (x2 : Vec F S5000x1 .f32) (x3 : Vec F S1x8 .f32) : Vec F S5000x8 .f32 :=
  View.canon [⟨r1_a, k1_pay1 (View.ld x2 r1_d) (View.ld x0 r1_a) (View.ld x1 r1_a) (View.ld x3 r1_b)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

/-- The body is the shared combine body at this region's shapes and payload, and at every point the inputs hold their blocks. -/
theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl]
  simp only [before1_0, before1_1, before1_2, before1_3]
  dsimp only [dat1, out1_4]
  show _ ⊢ wp _ _ _ (combSkel inb_S5000x8_S5000x8_0_0 inb_S5000x1_S5000x1_0_0 inb_S1x8_S1x8_0_0 h_S5000x8 h_S5000x1 h_S1x8 k1_pay1 _ _ _ _ _) _
  iintro ⟨HΦ, Ho, ⟨%d0, H0⟩, ⟨%d1, H1⟩, ⟨%d2, H2⟩, ⟨%d3, H3⟩, ⟨%d4, H4⟩⟩
  iapply (combine_triple Cert.LibWhole.off2_zero c Set.univ (iblk1 V c 0 t) (iblk1 V c 1 t) (iblk1 V c 2 t) (iblk1 V c 3 t) _)
  iframe
  isplitl [H4]; · iexists _; iexact H4
  iintro ⟨H0, H1, H2, H3, H4⟩
  iframe

end Cert.KernelIdeal.Hand
-- ==== Proof.KI.Reg2.lean ====
import proofs.«135318_j56487409877354_1_alg».proof.Proof.Gen.KernelIdeal.Launch
import proofs.«135318_j56487409877354_1_alg».proof.Proof.Gen.KernelIdeal.Skeleton
import proofs.«135318_j56487409877354_1_alg».proof.Proof.Gen.KernelIdeal.Points
import proofs.«135318_j56487409877354_1_alg».proof.Proof.LibMatmul
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S5000x8 .f32) (x1 : Vec F S8x16 .f32) : Vec F S5000x16 .f32 :=
  View.canon [⟨Rect.unit ![0, 0] S5000x16.size inb_S5000x16_S5000x16_0_0,
    k2_pay1 (View.ld x0 (Rect.unit ![0, 0] S5000x8.size inb_S5000x8_S5000x8_0_0))
      (View.ld x1 (Rect.unit ![0, 0] S8x16.size inb_S8x16_S8x16_0_0))⟩]

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (w : Fin cfg2.W) : (dat2 V c).A w = V c (Pipeline.arrRef spec2 w) := rfl

theorem before2 (t : Fin cfg2.N) :
    (∀ d, (dat2 V c).before 0 t d = iblk2 V c 0 t) ∧ ∀ d, (dat2 V c).before 1 t d = iblk2 V c 1 t :=
  ⟨(dat2 V c).before_in_eq_fetched 0 rfl (fun _ => rfl) (fun _ _ _ => rfl) (fun _ => rfl) t,
    (dat2 V c).before_in_eq_fetched 1 rfl (fun _ => rfl) (fun _ _ _ => rfl) (fun _ => rfl) t⟩

theorem body_obligation2 : BodyObligation (dat2 (F := F) V c) (defs₀ (F := F)) Variants.none () Set.univ := fun t => by
  rw [bigSep_W2, bigSep_W2, show (dat2 V c).owesAt () t.succ = (dat2 V c).owesAt () t.castSucc from rfl]
  simp only [(before2 V c t).1, (before2 V c t).2, show ∀ w i, cfg2.idle w i = false from fun _ _ => rfl]
  dsimp only [dat2]
  show _ ⊢ wp _ _ _ (bodyAt2 t) _
  unfold bodyAt2; rw [cc2__matmul_kernel_eq_skeleton]
  iintro ⟨HΦ, Ho, ⟨%d0, H0⟩, ⟨%d1, H1⟩, ⟨%d2, H2⟩⟩
  iapply (Cert.LibMatmul.sound defs₀ c (st2_0 t) (st2_1 t) (st2_2 t) inb_S5000x8_S5000x8_0_0 inb_S8x16_S8x16_0_0 inb_S5000x16_S5000x16_0_0
    h_S5000x8 h_S8x16 h_S5000x16 k2_pay1 (iblk2 V c 0 t) (iblk2 V c 1 t) (out2_2 (iblk2 V c 0 t) (iblk2 V c 1 t)) rfl _)
  iframe H0 H1
  isplitl [H2]; · iexists _; iexact H2
  iintro ⟨H0, H1, H2⟩
  iframe

end Cert.KernelIdeal.Hand

end
-- ==== Proof.KI.Reg3.lean ====
import proofs.«135318_j56487409877354_1_alg».proof.Proof.Gen.KernelIdeal.Launch
import proofs.«135318_j56487409877354_1_alg».proof.Proof.Gen.KernelIdeal.Skeleton
import proofs.«135318_j56487409877354_1_alg».proof.Proof.Gen.KernelIdeal.Points
import proofs.«135318_j56487409877354_1_alg».proof.Proof.LibCombine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.LibCombine

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S5000x16 := Rect.unit (s := S5000x16) ![0, 0] S5000x16.size inb_S5000x16_S5000x16_0_0
abbrev r3_d : Rect S5000x1 := Rect.unit (s := S5000x1) ![0, 0] S5000x1.size inb_S5000x1_S5000x1_0_0
abbrev r3_b : Rect S1x16 := Rect.unit (s := S1x16) ![0, 0] S1x16.size inb_S1x16_S1x16_0_0

/-- What the body's one store, which covers the output buffer, leaves there. -/
def out3_4 (x0 x1 : Vec F S5000x16 .f32) (x2 : Vec F S5000x1 .f32) (x3 : Vec F S1x16 .f32) : Vec F S5000x16 .f32 :=
  View.canon [⟨r3_a, k3_pay1 (View.ld x2 r3_d) (View.ld x0 r3_a) (View.ld x1 r3_a) (View.ld x3 r3_b)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl

/-- The body is the shared combine body at this region's shapes and payload, and at every point the inputs hold their blocks. -/
theorem body_obligation3 (c : Dev nD) : BodyObligation (dat3 (F := F) V c) (defs₀ (F := F)) Variants.none () Set.univ := fun t => by
  rw [bigSep_W3, bigSep_W3, show (dat3 V c).Φ t.succ = (dat3 V c).Φ t.castSucc from rfl,
    show (dat3 V c).owesAt () t.succ = (dat3 V c).owesAt () t.castSucc from rfl]
  simp only [before3_0, before3_1, before3_2, before3_3]
  dsimp only [dat3, out3_4]
  show _ ⊢ wp _ _ _ (combSkel inb_S5000x16_S5000x16_0_0 inb_S5000x1_S5000x1_0_0 inb_S1x16_S1x16_0_0 h_S5000x16 h_S5000x1 h_S1x16 k3_pay1 _ _ _ _ _) _
  iintro ⟨HΦ, Ho, ⟨%d0, H0⟩, ⟨%d1, H1⟩, ⟨%d2, H2⟩, ⟨%d3, H3⟩, ⟨%d4, H4⟩⟩
  iapply (combine_triple Cert.LibWhole.off2_zero c Set.univ (iblk3 V c 0 t) (iblk3 V c 1 t) (iblk3 V c 2 t) (iblk3 V c 3 t) _)
  iframe
  isplitl [H4]; · iexists _; iexact H4
  iintro ⟨H0, H1, H2, H3, H4⟩
  iframe

end Cert.KernelIdeal.Hand
-- ==== Proof.KI.Reg4.lean ====
import proofs.«135318_j56487409877354_1_alg».proof.Proof.Gen.KernelIdeal.Launch
import proofs.«135318_j56487409877354_1_alg».proof.Proof.Gen.KernelIdeal.Skeleton
import proofs.«135318_j56487409877354_1_alg».proof.Proof.Gen.KernelIdeal.Points
import proofs.«135318_j56487409877354_1_alg».proof.Proof.LibMatmul
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S5000x16 .f32) (x1 : Vec F S16x32 .f32) : Vec F S5000x32 .f32 :=
  View.canon [⟨Rect.unit ![0, 0] S5000x32.size inb_S5000x32_S5000x32_0_0,
    k4_pay1 (View.ld x0 (Rect.unit ![0, 0] S5000x16.size inb_S5000x16_S5000x16_0_0))
      (View.ld x1 (Rect.unit ![0, 0] S16x32.size inb_S16x32_S16x32_0_0))⟩]

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (w : Fin cfg4.W) : (dat4 V c).A w = V c (Pipeline.arrRef spec4 w) := rfl

theorem before4 (t : Fin cfg4.N) :
    (∀ d, (dat4 V c).before 0 t d = iblk4 V c 0 t) ∧ ∀ d, (dat4 V c).before 1 t d = iblk4 V c 1 t :=
  ⟨(dat4 V c).before_in_eq_fetched 0 rfl (fun _ => rfl) (fun _ _ _ => rfl) (fun _ => rfl) t,
    (dat4 V c).before_in_eq_fetched 1 rfl (fun _ => rfl) (fun _ _ _ => rfl) (fun _ => rfl) t⟩

theorem body_obligation4 : BodyObligation (dat4 (F := F) V c) (defs₀ (F := F)) Variants.none () Set.univ := fun t => by
  rw [bigSep_W4, bigSep_W4, show (dat4 V c).owesAt () t.succ = (dat4 V c).owesAt () t.castSucc from rfl]
  simp only [(before4 V c t).1, (before4 V c t).2, show ∀ w i, cfg4.idle w i = false from fun _ _ => rfl]
  dsimp only [dat4]
  show _ ⊢ wp _ _ _ (bodyAt4 t) _
  unfold bodyAt4; rw [cc4__matmul_kernel_eq_skeleton]
  iintro ⟨HΦ, Ho, ⟨%d0, H0⟩, ⟨%d1, H1⟩, ⟨%d2, H2⟩⟩
  iapply (Cert.LibMatmul.sound defs₀ c (st4_0 t) (st4_1 t) (st4_2 t) inb_S5000x16_S5000x16_0_0 inb_S16x32_S16x32_0_0 inb_S5000x32_S5000x32_0_0
    h_S5000x16 h_S16x32 h_S5000x32 k4_pay1 (iblk4 V c 0 t) (iblk4 V c 1 t) (out4_2 (iblk4 V c 0 t) (iblk4 V c 1 t)) rfl _)
  iframe H0 H1
  isplitl [H2]; · iexists _; iexact H2
  iintro ⟨H0, H1, H2⟩
  iframe

end Cert.KernelIdeal.Hand

end
-- ==== Proof.KI.Reg5.lean ====
import proofs.«135318_j56487409877354_1_alg».proof.Proof.Gen.KernelIdeal.Launch
import proofs.«135318_j56487409877354_1_alg».proof.Proof.Gen.KernelIdeal.Skeleton
import proofs.«135318_j56487409877354_1_alg».proof.Proof.Gen.KernelIdeal.Points
import proofs.«135318_j56487409877354_1_alg».proof.Proof.LibCombine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.LibCombine

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S5000x32 := Rect.unit (s := S5000x32) ![0, 0] S5000x32.size inb_S5000x32_S5000x32_0_0
abbrev r5_d : Rect S5000x1 := Rect.unit (s := S5000x1) ![0, 0] S5000x1.size inb_S5000x1_S5000x1_0_0
abbrev r5_b : Rect S1x32 := Rect.unit (s := S1x32) ![0, 0] S1x32.size inb_S1x32_S1x32_0_0

/-- What the body's one store, which covers the output buffer, leaves there. -/
def out5_4 (x0 x1 : Vec F S5000x32 .f32) (x2 : Vec F S5000x1 .f32) (x3 : Vec F S1x32 .f32) : Vec F S5000x32 .f32 :=
  View.canon [⟨r5_a, k5_pay1 (View.ld x2 r5_d) (View.ld x0 r5_a) (View.ld x1 r5_a) (View.ld x3 r5_b)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

/-- The body is the shared combine body at this region's shapes and payload, and at every point the inputs hold their blocks. -/
theorem body_obligation5 (c : Dev nD) : BodyObligation (dat5 (F := F) V c) (defs₀ (F := F)) Variants.none () Set.univ := fun t => by
  rw [bigSep_W5, bigSep_W5, show (dat5 V c).Φ t.succ = (dat5 V c).Φ t.castSucc from rfl,
    show (dat5 V c).owesAt () t.succ = (dat5 V c).owesAt () t.castSucc from rfl]
  simp only [before5_0, before5_1, before5_2, before5_3]
  dsimp only [dat5, out5_4]
  show _ ⊢ wp _ _ _ (combSkel inb_S5000x32_S5000x32_0_0 inb_S5000x1_S5000x1_0_0 inb_S1x32_S1x32_0_0 h_S5000x32 h_S5000x1 h_S1x32 k5_pay1 _ _ _ _ _) _
  iintro ⟨HΦ, Ho, ⟨%d0, H0⟩, ⟨%d1, H1⟩, ⟨%d2, H2⟩, ⟨%d3, H3⟩, ⟨%d4, H4⟩⟩
  iapply (combine_triple Cert.LibWhole.off2_zero c Set.univ (iblk5 V c 0 t) (iblk5 V c 1 t) (iblk5 V c 2 t) (iblk5 V c 3 t) _)
  iframe
  isplitl [H4]; · iexists _; iexact H4
  iintro ⟨H0, H1, H2, H3, H4⟩
  iframe

end Cert.KernelIdeal.Hand
-- ==== Proof.KI.Reg6.lean ====
import proofs.«135318_j56487409877354_1_alg».proof.Proof.Gen.KernelIdeal.Launch
import proofs.«135318_j56487409877354_1_alg».proof.Proof.Gen.KernelIdeal.Skeleton
import proofs.«135318_j56487409877354_1_alg».proof.Proof.Gen.KernelIdeal.Points
import proofs.«135318_j56487409877354_1_alg».proof.Proof.LibMatmul
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
  (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_2 (x0 : Vec F S5000x32 .f32) (x1 : Vec F S32x64 .f32) : Vec F S5000x64 .f32 :=
  View.canon [⟨Rect.unit ![0, 0] S5000x64.size inb_S5000x64_S5000x64_0_0,
    k6_pay1 (View.ld x0 (Rect.unit ![0, 0] S5000x32.size inb_S5000x32_S5000x32_0_0))
      (View.ld x1 (Rect.unit ![0, 0] S32x64.size inb_S32x64_S32x64_0_0))⟩]

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (w : Fin cfg6.W) : (dat6 V c).A w = V c (Pipeline.arrRef spec6 w) := rfl

theorem before6 (t : Fin cfg6.N) :
    (∀ d, (dat6 V c).before 0 t d = iblk6 V c 0 t) ∧ ∀ d, (dat6 V c).before 1 t d = iblk6 V c 1 t :=
  ⟨(dat6 V c).before_in_eq_fetched 0 rfl (fun _ => rfl) (fun _ _ _ => rfl) (fun _ => rfl) t,
    (dat6 V c).before_in_eq_fetched 1 rfl (fun _ => rfl) (fun _ _ _ => rfl) (fun _ => rfl) t⟩

theorem body_obligation6 : BodyObligation (dat6 (F := F) V c) (defs₀ (F := F)) Variants.none () Set.univ := fun t => by
  rw [bigSep_W6, bigSep_W6, show (dat6 V c).owesAt () t.succ = (dat6 V c).owesAt () t.castSucc from rfl]
  simp only [(before6 V c t).1, (before6 V c t).2, show ∀ w i, cfg6.idle w i = false from fun _ _ => rfl]
  dsimp only [dat6]
  show _ ⊢ wp _ _ _ (bodyAt6 t) _
  unfold bodyAt6; rw [cc6__matmul_kernel_eq_skeleton]
  iintro ⟨HΦ, Ho, ⟨%d0, H0⟩, ⟨%d1, H1⟩, ⟨%d2, H2⟩⟩
  iapply (Cert.LibMatmul.sound defs₀ c (st6_0 t) (st6_1 t) (st6_2 t) inb_S5000x32_S5000x32_0_0 inb_S32x64_S32x64_0_0 inb_S5000x64_S5000x64_0_0
    h_S5000x32 h_S32x64 h_S5000x64 k6_pay1 (iblk6 V c 0 t) (iblk6 V c 1 t) (out6_2 (iblk6 V c 0 t) (iblk6 V c 1 t)) rfl _)
  iframe H0 H1
  isplitl [H2]; · iexists _; iexact H2
  iintro ⟨H0, H1, H2⟩
  iframe

end Cert.KernelIdeal.Hand

end
-- ==== Proof.KI.Reg7.lean ====
import proofs.«135318_j56487409877354_1_alg».proof.Proof.Gen.KernelIdeal.Launch
import proofs.«135318_j56487409877354_1_alg».proof.Proof.Gen.KernelIdeal.Skeleton
import proofs.«135318_j56487409877354_1_alg».proof.Proof.Gen.KernelIdeal.Points
import proofs.«135318_j56487409877354_1_alg».proof.Proof.LibCombine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.LibCombine

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_a : Rect S5000x64 := Rect.unit (s := S5000x64) ![0, 0] S5000x64.size inb_S5000x64_S5000x64_0_0
abbrev r7_d : Rect S5000x1 := Rect.unit (s := S5000x1) ![0, 0] S5000x1.size inb_S5000x1_S5000x1_0_0
abbrev r7_b : Rect S1x64 := Rect.unit (s := S1x64) ![0, 0] S1x64.size inb_S1x64_S1x64_0_0

/-- What the body's one store, which covers the output buffer, leaves there. -/
def out7_4 (x0 x1 : Vec F S5000x64 .f32) (x2 : Vec F S5000x1 .f32) (x3 : Vec F S1x64 .f32) : Vec F S5000x64 .f32 :=
  View.canon [⟨r7_a, k7_pay1 (View.ld x2 r7_d) (View.ld x0 r7_a) (View.ld x1 r7_a) (View.ld x3 r7_b)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := rfl

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl

/-- The body is the shared combine body at this region's shapes and payload, and at every point the inputs hold their blocks. -/
theorem body_obligation7 (c : Dev nD) : BodyObligation (dat7 (F := F) V c) (defs₀ (F := F)) Variants.none () Set.univ := fun t => by
  rw [bigSep_W7, bigSep_W7, show (dat7 V c).Φ t.succ = (dat7 V c).Φ t.castSucc from rfl,
    show (dat7 V c).owesAt () t.succ = (dat7 V c).owesAt () t.castSucc from rfl]
  simp only [before7_0, before7_1, before7_2, before7_3]
  dsimp only [dat7, out7_4]
  show _ ⊢ wp _ _ _ (combSkel inb_S5000x64_S5000x64_0_0 inb_S5000x1_S5000x1_0_0 inb_S1x64_S1x64_0_0 h_S5000x64 h_S5000x1 h_S1x64 k7_pay1 _ _ _ _ _) _
  iintro ⟨HΦ, Ho, ⟨%d0, H0⟩, ⟨%d1, H1⟩, ⟨%d2, H2⟩, ⟨%d3, H3⟩, ⟨%d4, H4⟩⟩
  iapply (combine_triple Cert.LibWhole.off2_zero c Set.univ (iblk7 V c 0 t) (iblk7 V c 1 t) (iblk7 V c 2 t) (iblk7 V c 3 t) _)
  iframe
  isplitl [H4]; · iexists _; iexact H4
  iintro ⟨H0, H1, H2, H3, H4⟩
  iframe

end Cert.KernelIdeal.Hand
-- ==== Proof.KI.Reg8Defs.lean ====
import proofs.«135318_j56487409877354_1_alg».proof.Proof.Gen.KernelIdeal.Launch
import proofs.«135318_j56487409877354_1_alg».proof.Proof.Gen.KernelIdeal.Skeleton
import proofs.«135318_j56487409877354_1_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : (n : ℕ) → n < cfg8.N → Vec F S64x64 .f32
  | 0, h => k8_pay2 (iblk8 V c 0 ⟨0, h⟩) (iblk8 V c 1 ⟨0, h⟩) k8_pay1
  | n + 1, h => k8_pay2 (iblk8 V c 0 ⟨n + 1, h⟩) (iblk8 V c 1 ⟨n + 1, h⟩) (acc8 c n (Nat.lt_of_succ_lt h))

/-- The accumulator after a point is the point's product added to the zero fill at the first point and to what the
    point before left at the others. -/
theorem acc8_at (c : Dev nD) (t : Fin cfg8.N) :
    acc8 V c t.val t.isLt = k8_pay2 (iblk8 V c 0 t) (iblk8 V c 1 t)
      (if t.val = 0 then k8_pay1 else acc8 V c (t.val - 1) (Nat.lt_of_le_of_lt (Nat.sub_le _ _) t.isLt)) := by
  obtain ⟨_ | n, hn⟩ := t <;> rfl

def out8_5 (c : Dev nD) : Vec F S64x4 .f32 :=
  k8_pay3 (acc8 V c 19 (by decide)) (iblk8 V c 2 ⟨19, by decide⟩) (iblk8 V c 3 ⟨19, by decide⟩) (iblk8 V c 4 ⟨19, by decide⟩)

def PhiS8 (c : Dev nD) : (n : ℕ) → n ≤ cfg8.N → sProp 𝕄
  | 0, _ => Pipeline.ΦA spec8 c
  | n + 1, hn => iprop(owns (c : Thread nD τ) (Memref.whole cc8_scratch0) fullShare (acc8 V c n hn)
      ∗ Pipeline.scopedRestBut spec8 c [cc8_scratch0] ∗ ∃ r, prngReg c r)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 V c
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

end Cert.KernelIdeal.Hand

end
-- ==== Proof.KI.Reg8Runs.lean ====
import proofs.«135318_j56487409877354_1_alg».proof.Proof.Gen.KernelIdeal.Launch
import proofs.«135318_j56487409877354_1_alg».proof.Proof.Gen.KernelIdeal.Skeleton
import proofs.«135318_j56487409877354_1_alg».proof.Proof.Gen.KernelIdeal.Points
import proofs.«135318_j56487409877354_1_alg».proof.Proof.LibWhole
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibWhole

variable {F : FTy → Type} [FloatOps F]

local notation "𝕄" => MT nD τ sig Unit (Elt F) ℕ (UR sig nD τ) ℕ

abbrev cond8_1 (i : grid8.Coords) : Prop :=
  (Scalar.cmpi .ne (Scalar.extui (Scalar.cmpi .eq (BitVec.ofNat 32 (i 0).val) 0#32)) 0#32) = 1#1
abbrev cond8_2 (i : grid8.Coords) : Prop := k8_cond2 i = 1#1

/-- The first test holds at point 0 only, the second at point 19 only. -/
theorem hcond8 : ∀ t : Fin cfg8.N, (cond8_1 (grid8.coords t) ↔ t.val = 0) ∧ (cond8_2 (grid8.coords t) ↔ t.val = 19) :=
  (by decide +kernel : ∀ t : Fin grid8.N, _)

theorem idle8_5 : ∀ t : Fin cfg8.N, (cond8_2 (grid8.coords t) → cfg8.idle 5 (grid8.coords t) = false)
    ∧ (¬cond8_2 (grid8.coords t) → cfg8.idle 5 (grid8.coords t) = true ∧ (cfg8.win 5).flush t = false) := by decide +kernel

set_option maxHeartbeats 1000000 in
/-- The body on whole buffers: the scratch, reset first when the point is the first, gains the point's pooling
    product; when the point is the last the output's buffer receives the head of the new scratch. -/
theorem sound_kernel8 (c : Dev nD) (E : Set ℕ) (i : grid8.Coords)
    (arg1 : Memref sig .tc .vmem S5000x1 .i32) (harg1 : arg1.IsWhole) (arg2 : Memref sig .tc .vmem S5000x64 .f32) (harg2 : arg2.IsWhole)
    (arg3 : Memref sig .tc .vmem S64x1 .f32) (harg3 : arg3.IsWhole) (arg4 : Memref sig .tc .vmem S64x4 .f32) (harg4 : arg4.IsWhole)
    (arg5 : Memref sig .tc .vmem S1x4 .f32) (harg5 : arg5.IsWhole) (arg6 : Memref sig .tc .vmem S64x4 .f32) (harg6 : arg6.IsWhole)
    (arg7 : Memref sig .tc .vmem S64x64 .f32) (harg7 : arg7.IsWhole)
    (x0 : Vec F S5000x1 .i32) (x1 : Vec F S5000x64 .f32) (x2 : Vec F S64x1 .f32) (x3 : Vec F S64x4 .f32) (x4 : Vec F S1x4 .f32)
    (d : Vec F S64x4 .f32) (s : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare d
        ∗ owns (c : Thread nD τ) arg7 fullShare s
        ∗ (iprop(owns (c : Thread nD τ) arg6 fullShare
                (if cond8_2 i then k8_pay3 (k8_pay2 x0 x1 (if cond8_1 i then k8_pay1 else s)) x2 x3 x4 else d)
            ∗ owns (c : Thread nD τ) arg7 fullShare (k8_pay2 x0 x1 (if cond8_1 i then k8_pay1 else s))
            ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4) -∗ K ⟨⟩))
      ⊢ wp frame (wpE (defs₀ (F := F)) Variants.none c none) E
          (cc8__pool_kernel i arg1 harg1 arg2 harg2 arg3 harg3 arg4 harg4 arg5 harg5 arg6 harg6 arg7 harg7) K := by
  simp only [cc8__pool_kernel_eq_skeleton]; unfold cc8__pool_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0 hf1 hf2 hf3 hf4 hf5 hfs
  by_cases hc1 : cond8_1 i <;> by_cases hc2 : cond8_2 i
  all_goals
    sl_exec (disch := first | exact hc1 | exact hc2)
    sl_step
    iapply Hk
    isplitl [H5]
    · iexists _; isplitr
      swap; · iexact H5
      ipureintro
      try sl_unfold_run_names
      repeat first | rw [read_writes_unit_zero _ off2_zero] | rw [readAt_unit_zero _ off2_zero] | rw [readCov_unit_zero _ off2_zero] | rw [if_pos hc2] | rw [if_neg hc2] | rw [if_pos hc1] | rw [if_neg hc1]
    isplitl [HS]
    · iexists _; isplitr
      swap; · iexact HS
      ipureintro
      try sl_unfold_run_names
      repeat first | rw [read_writes_unit_zero _ off2_zero] | rw [readAt_unit_zero _ off2_zero] | rw [readCov_unit_zero _ off2_zero] | rw [if_pos hc1] | rw [if_neg hc1]
    sl_close

end Cert.KernelIdeal.Hand

end
-- ==== Proof.KI.Reg8.lean ====
import proofs.«135318_j56487409877354_1_alg».proof.Proof.KI.Reg8Defs
import proofs.«135318_j56487409877354_1_alg».proof.Proof.KI.Reg8Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before8 (c : Dev nD) (t : Fin cfg8.N) :
    (∀ d, (dat8 V c).before 0 t d = iblk8 V c 0 t) ∧ (∀ d, (dat8 V c).before 1 t d = iblk8 V c 1 t)
    ∧ (∀ d, (dat8 V c).before 2 t d = iblk8 V c 2 t) ∧ (∀ d, (dat8 V c).before 3 t d = iblk8 V c 3 t)
    ∧ (∀ d, (dat8 V c).before 4 t d = iblk8 V c 4 t) := by
  refine ⟨?_, ?_, ?_, ?_, ?_⟩ <;> intro d <;>
    refine ((dat8 V c).before_in_eq_fetched _ rfl (fun _ => rfl) (fun _ _ _ => rfl) (fun t => ?_) t d).trans ?_
  all_goals first
    | (rw [show (dat8 V c).after _ t = iblk8 V c _ t by dsimp only [dat8]]; unfold Dat.blockOf iblk8; rw [A_eq8])
    | (unfold Dat.fetched Dat.blockOf iblk8; rw [A_eq8]; try rfl)

theorem leaves8 (c : Dev nD) (t : Fin cfg8.N) :
    (dat8 V c).leavesExact 0 t = owns (c : Thread nD τ) (st8_0 t) fullShare (iblk8 V c 0 t)
    ∧ (dat8 V c).leavesExact 1 t = owns (c : Thread nD τ) (st8_1 t) fullShare (iblk8 V c 1 t)
    ∧ (dat8 V c).leavesExact 2 t = owns (c : Thread nD τ) (st8_2 t) fullShare (iblk8 V c 2 t)
    ∧ (dat8 V c).leavesExact 3 t = owns (c : Thread nD τ) (st8_3 t) fullShare (iblk8 V c 3 t)
    ∧ (dat8 V c).leavesExact 4 t = owns (c : Thread nD τ) (st8_4 t) fullShare (iblk8 V c 4 t) :=
  ⟨rfl, rfl, rfl, rfl, rfl⟩

theorem PhiA8_eq (c : Dev nD) :
    (Pipeline.ΦA spec8 c : sProp 𝕄)
      = iprop(iprop(iprop(∃ d, owns (c : Thread nD τ) (Memref.whole cc8_scratch0) fullShare d)
          ∗ Pipeline.scopedRestBut spec8 c [cc8_scratch0]) ∗ (∃ r, prngReg c r)) := by
  unfold Pipeline.ΦA; rw [scopedRest8_split]; simp only [owns_whole]; try rfl

/-- Before a point the invariant holds the scratch at some contents: at the first point any, at a later point the
    accumulator the point before left. -/
theorem PhiS8_open (c : Dev nD) (n : ℕ) (h : n ≤ cfg8.N) :
    PhiS8 V c n h ⊢ iprop(∃ s, ⌜∀ h0 : n ≠ 0, s = acc8 V c (n - 1) (by omega)⌝
      ∗ owns (c : Thread nD τ) (Memref.whole cc8_scratch0) fullShare s ∗ Pipeline.scopedRestBut spec8 c [cc8_scratch0] ∗ ∃ r, prngReg c r) := by
  cases n with
  | zero =>
    show Pipeline.ΦA spec8 c ⊢ _
    rw [PhiA8_eq]
    iintro ⟨⟨⟨%s, HS⟩, HR⟩, Hg⟩
    iexists s; isplitr; · ipureintro; exact fun h => absurd rfl h
    iframe
  | succ n =>
    show iprop(owns (c : Thread nD τ) (Memref.whole cc8_scratch0) fullShare (acc8 V c n h)
      ∗ Pipeline.scopedRestBut spec8 c [cc8_scratch0] ∗ ∃ r, prngReg c r) ⊢ _
    iintro H
    iexists _; isplitr; swap; · iexact H
    ipureintro; exact fun _ => rfl

/-- The output's buffer after a point: at the last point the head of the new accumulator, elsewhere as found. -/
theorem leaves8_5 (c : Dev nD) (t : Fin cfg8.N) (d) :
    owns (c : Thread nD τ) (st8_5 t) fullShare
        (if cond8_2 (grid8.coords t) then k8_pay3 (acc8 V c t.val t.isLt) (iblk8 V c 2 t) (iblk8 V c 3 t) (iblk8 V c 4 t)
          else (dat8 V c).before 5 t d)
      ⊢ (dat8 V c).leavesExact 5 t := by
  by_cases hc2 : cond8_2 (grid8.coords t)
  · rw [if_pos hc2]; unfold Dat.leavesExact; rw [(idle8_5 t).1 hc2]
    obtain ⟨n, hn⟩ := t
    obtain rfl : n = 19 := ((hcond8 ⟨n, hn⟩).2).1 hc2
    exact .rfl
  · rw [if_neg hc2, Dat.leavesExact_idle (dat8 V c) 5 t ((idle8_5 t).2 hc2).1 ((idle8_5 t).2 hc2).2]
    iintro H; iexists d; iexact H

/-- The body at any point: the inputs' buffers hold their blocks, the invariant lends the scratch and takes it back at
    this point's accumulator; everything else passes through. -/
theorem sound_body8 (c : Dev nD) (t : Fin cfg8.N) :
    iprop((dat8 V c).Φ t.castSucc ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d))
      ∗ (∃ d, owns (c : Thread nD τ) (st8_3 t) fullShare ((dat8 V c).before 3 t d))
      ∗ (∃ d, owns (c : Thread nD τ) (st8_4 t) fullShare ((dat8 V c).before 4 t d))
      ∗ (∃ d, owns (c : Thread nD τ) (st8_5 t) fullShare ((dat8 V c).before 5 t d)))
    ⊢ wp frame (wpE (defs₀ (F := F)) Variants.none c none) Set.univ (bodyAt8 t) (fun _ =>
        iprop((dat8 V c).Φ t.succ ∗ (dat8 V c).owesAt () t.succ
          ∗ (dat8 V c).leavesExact 0 t ∗ (dat8 V c).leavesExact 1 t ∗ (dat8 V c).leavesExact 2 t
          ∗ (dat8 V c).leavesExact 3 t ∗ (dat8 V c).leavesExact 4 t ∗ (dat8 V c).leavesExact 5 t)) := by
  unfold bodyAt8
  obtain ⟨b0, b1, b2, b3, b4⟩ := before8 V c t
  obtain ⟨l0, l1, l2, l3, l4⟩ := leaves8 V c t
  simp only [b0, b1, b2, b3, b4]
  rw [l0, l1, l2, l3, l4, show (dat8 V c).owesAt () t.succ = (dat8 V c).owesAt () t.castSucc from rfl,
    show (dat8 V c).Φ t.succ = iprop(owns (c : Thread nD τ) (Memref.whole cc8_scratch0) fullShare (acc8 V c t.val t.isLt)
      ∗ Pipeline.scopedRestBut spec8 c [cc8_scratch0] ∗ ∃ r, prngReg c r) from rfl,
    show (dat8 V c).Φ t.castSucc = PhiS8 V c t.val (Nat.le_of_lt t.isLt) from rfl]
  have hacc : ∀ s, (∀ h0 : t.val ≠ 0, s = acc8 V c (t.val - 1) (by omega)) →
      k8_pay2 (iblk8 V c 0 t) (iblk8 V c 1 t) (if cond8_1 (grid8.coords t) then k8_pay1 else s) = acc8 V c t.val t.isLt := fun s hs => by
    rw [acc8_at, if_congr (hcond8 t).1 rfl rfl]
    by_cases h0 : t.val = 0
    · rw [if_pos h0, if_pos h0]
    · rw [if_neg h0, if_neg h0, hs h0]
  iintro ⟨HΦ, Ho, ⟨%d0, H0⟩, ⟨%d1, H1⟩, ⟨%d2, H2⟩, ⟨%d3, H3⟩, ⟨%d4, H4⟩, ⟨%d5, H5⟩⟩
  ihave HΦ' := (PhiS8_open V c t.val (Nat.le_of_lt t.isLt)) $$ HΦ
  icases HΦ' with ⟨%s, %hs, HS, HR, Hg⟩
  iapply (sound_kernel8 c Set.univ (grid8.coords t) _ _ _ _ _ _ _ _ _ _ _ _ _ _
    (iblk8 V c 0 t) (iblk8 V c 1 t) (iblk8 V c 2 t) (iblk8 V c 3 t) (iblk8 V c 4 t) _ s _)
  rw [hacc s hs]
  iframe H0 H1 H2 H3 H4 H5 HS
  iintro ⟨H5, HS, H0, H1, H2, H3, H4⟩
  iframe HS HR Hg Ho H0 H1 H2 H3 H4
  iapply (leaves8_5 V c t d5); iexact H5

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 (F := F) V c).Φ 0 := .rfl

theorem hout8 (c : Dev nD) : (dat8 (F := F) V c).Φ (Fin.last cfg8.N) ⊢ Pipeline.ΦA spec8 c := by
  refine BIBase.Entails.trans (PhiS8_open V c (Fin.last cfg8.N).val (Fin.last cfg8.N).is_le) ?_
  rw [PhiA8_eq]
  iintro ⟨%s, -, HS, HR, Hg⟩
  iframe HR Hg
  iexists _; iexact HS

end Cert.KernelIdeal.Hand

end
-- ==== Proof.KI.Run.lean ====
import proofs.«135318_j56487409877354_1_alg».proof.Proof.KI.Reg0
import proofs.«135318_j56487409877354_1_alg».proof.Proof.KI.Reg1
import proofs.«135318_j56487409877354_1_alg».proof.Proof.KI.Reg2
import proofs.«135318_j56487409877354_1_alg».proof.Proof.KI.Reg3
import proofs.«135318_j56487409877354_1_alg».proof.Proof.KI.Reg4
import proofs.«135318_j56487409877354_1_alg».proof.Proof.KI.Reg5
import proofs.«135318_j56487409877354_1_alg».proof.Proof.KI.Reg6
import proofs.«135318_j56487409877354_1_alg».proof.Proof.KI.Reg7
import proofs.«135318_j56487409877354_1_alg».proof.Proof.KI.Reg8
import proofs.«135318_j56487409877354_1_alg».proof.Proof.Gen.KernelIdeal.Regions
import proofs.«135318_j56487409877354_1_alg».proof.Proof.LibRegion

noncomputable section

namespace Cert.KernelIdeal.Hand

open Cert.KernelIdeal Cert.KernelIdeal.Gen Cert.LibRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

export Cert.LibRegion (VV)

variable (m : (ℓ : Loc nD τ sig) → Buf (Elt F) ℓ) (ρ : Dev nD → PrngReg)

/-! The buffers' contents between the items of @main: at launch, after each host stretch, after each region. -/

abbrev P0 : Dev nD → Valuation τ sig (Elt F) := fun c b => (s₀ m ρ).mem ((c : Dev nD), b)
abbrev P1 : Dev nD → Valuation τ sig (Elt F) := fun c => StableHlo.after hostOps0 (P0 m ρ c)
def P2 : Dev nD → Valuation τ sig (Elt F) := step cfgs (p := 0) (dat0 (VV (P1 m ρ))) (P1 m ρ)
abbrev P3 : Dev nD → Valuation τ sig (Elt F) := fun c => StableHlo.after hostOps1 (P2 m ρ c)
def P4 : Dev nD → Valuation τ sig (Elt F) := step cfgs (p := 1) (dat1 (VV (P3 m ρ))) (P3 m ρ)
def P5 : Dev nD → Valuation τ sig (Elt F) := step cfgs (p := 2) (dat2 (VV (P4 m ρ))) (P4 m ρ)
abbrev P6 : Dev nD → Valuation τ sig (Elt F) := fun c => StableHlo.after hostOps3 (P5 m ρ c)
def P7 : Dev nD → Valuation τ sig (Elt F) := step cfgs (p := 3) (dat3 (VV (P6 m ρ))) (P6 m ρ)
def P8 : Dev nD → Valuation τ sig (Elt F) := step cfgs (p := 4) (dat4 (VV (P7 m ρ))) (P7 m ρ)
abbrev P9 : Dev nD → Valuation τ sig (Elt F) := fun c => StableHlo.after hostOps5 (P8 m ρ c)
def P10 : Dev nD → Valuation τ sig (Elt F) := step cfgs (p := 5) (dat5 (VV (P9 m ρ))) (P9 m ρ)
def P11 : Dev nD → Valuation τ sig (Elt F) := step cfgs (p := 6) (dat6 (VV (P10 m ρ))) (P10 m ρ)
abbrev P12 : Dev nD → Valuation τ sig (Elt F) := fun c => StableHlo.after hostOps7 (P11 m ρ c)
def P13 : Dev nD → Valuation τ sig (Elt F) := step cfgs (p := 7) (dat7 (VV (P12 m ρ))) (P12 m ρ)
abbrev P14 : Dev nD → Valuation τ sig (Elt F) := fun c => StableHlo.after hostOps8 (P13 m ρ c)
def P15 : Dev nD → Valuation τ sig (Elt F) := step cfgs (p := 8) (dat8 (VV (P14 m ρ))) (P14 m ρ)

theorem P2_arr (c : Dev nD) (w : Fin cfg0.W) :
    P2 m ρ c (Proc.devRef .tc (Pipeline.arrRef spec0 w)) = (dat0 (VV (P1 m ρ)) c).arrAt w cfg0.N :=
  step_arr cfgs (p := 0) _ _ launch0.win.arr_inj c w
theorem P2_keep (c : Dev nD) (b : Ref sig .tc) (hb : b ≠ main_v13) : P2 m ρ c (Proc.devRef .tc b) = P1 m ρ c (Proc.devRef .tc b) :=
  step_keep cfgs (p := 0) _ _ launch0.win.arr_inj (A_eq0 _) (2 : Fin cfg0.W) (by decide) c b hb
theorem P4_arr (c : Dev nD) (w : Fin cfg1.W) :
    P4 m ρ c (Proc.devRef .tc (Pipeline.arrRef spec1 w)) = (dat1 (VV (P3 m ρ)) c).arrAt w cfg1.N :=
  step_arr cfgs (p := 1) _ _ launch1.win.arr_inj c w
theorem P4_keep (c : Dev nD) (b : Ref sig .tc) (hb : b ≠ main_v44) : P4 m ρ c (Proc.devRef .tc b) = P3 m ρ c (Proc.devRef .tc b) :=
  step_keep cfgs (p := 1) _ _ launch1.win.arr_inj (A_eq1 _) (4 : Fin cfg1.W) (by decide) c b hb
theorem P5_arr (c : Dev nD) (w : Fin cfg2.W) :
    P5 m ρ c (Proc.devRef .tc (Pipeline.arrRef spec2 w)) = (dat2 (VV (P4 m ρ)) c).arrAt w cfg2.N :=
  step_arr cfgs (p := 2) _ _ launch2.win.arr_inj c w
theorem P5_keep (c : Dev nD) (b : Ref sig .tc) (hb : b ≠ main_v45) : P5 m ρ c (Proc.devRef .tc b) = P4 m ρ c (Proc.devRef .tc b) :=
  step_keep cfgs (p := 2) _ _ launch2.win.arr_inj (A_eq2 _) (2 : Fin cfg2.W) (by decide) c b hb
theorem P7_arr (c : Dev nD) (w : Fin cfg3.W) :
    P7 m ρ c (Proc.devRef .tc (Pipeline.arrRef spec3 w)) = (dat3 (VV (P6 m ρ)) c).arrAt w cfg3.N :=
  step_arr cfgs (p := 3) _ _ launch3.win.arr_inj c w
theorem P7_keep (c : Dev nD) (b : Ref sig .tc) (hb : b ≠ main_v76) : P7 m ρ c (Proc.devRef .tc b) = P6 m ρ c (Proc.devRef .tc b) :=
  step_keep cfgs (p := 3) _ _ launch3.win.arr_inj (A_eq3 _) (4 : Fin cfg3.W) (by decide) c b hb
theorem P8_arr (c : Dev nD) (w : Fin cfg4.W) :
    P8 m ρ c (Proc.devRef .tc (Pipeline.arrRef spec4 w)) = (dat4 (VV (P7 m ρ)) c).arrAt w cfg4.N :=
  step_arr cfgs (p := 4) _ _ launch4.win.arr_inj c w
theorem P8_keep (c : Dev nD) (b : Ref sig .tc) (hb : b ≠ main_v77) : P8 m ρ c (Proc.devRef .tc b) = P7 m ρ c (Proc.devRef .tc b) :=
  step_keep cfgs (p := 4) _ _ launch4.win.arr_inj (A_eq4 _) (2 : Fin cfg4.W) (by decide) c b hb
theorem P10_arr (c : Dev nD) (w : Fin cfg5.W) :
    P10 m ρ c (Proc.devRef .tc (Pipeline.arrRef spec5 w)) = (dat5 (VV (P9 m ρ)) c).arrAt w cfg5.N :=
  step_arr cfgs (p := 5) _ _ launch5.win.arr_inj c w
theorem P10_keep (c : Dev nD) (b : Ref sig .tc) (hb : b ≠ main_v108) : P10 m ρ c (Proc.devRef .tc b) = P9 m ρ c (Proc.devRef .tc b) :=
  step_keep cfgs (p := 5) _ _ launch5.win.arr_inj (A_eq5 _) (4 : Fin cfg5.W) (by decide) c b hb
theorem P11_arr (c : Dev nD) (w : Fin cfg6.W) :
    P11 m ρ c (Proc.devRef .tc (Pipeline.arrRef spec6 w)) = (dat6 (VV (P10 m ρ)) c).arrAt w cfg6.N :=
  step_arr cfgs (p := 6) _ _ launch6.win.arr_inj c w
theorem P11_keep (c : Dev nD) (b : Ref sig .tc) (hb : b ≠ main_v109) : P11 m ρ c (Proc.devRef .tc b) = P10 m ρ c (Proc.devRef .tc b) :=
  step_keep cfgs (p := 6) _ _ launch6.win.arr_inj (A_eq6 _) (2 : Fin cfg6.W) (by decide) c b hb
theorem P13_arr (c : Dev nD) (w : Fin cfg7.W) :
    P13 m ρ c (Proc.devRef .tc (Pipeline.arrRef spec7 w)) = (dat7 (VV (P12 m ρ)) c).arrAt w cfg7.N :=
  step_arr cfgs (p := 7) _ _ launch7.win.arr_inj c w
theorem P13_keep (c : Dev nD) (b : Ref sig .tc) (hb : b ≠ main_v140) : P13 m ρ c (Proc.devRef .tc b) = P12 m ρ c (Proc.devRef .tc b) :=
  step_keep cfgs (p := 7) _ _ launch7.win.arr_inj (A_eq7 _) (4 : Fin cfg7.W) (by decide) c b hb
theorem P15_arr (c : Dev nD) (w : Fin cfg8.W) :
    P15 m ρ c (Proc.devRef .tc (Pipeline.arrRef spec8 w)) = (dat8 (VV (P14 m ρ)) c).arrAt w cfg8.N :=
  step_arr cfgs (p := 8) _ _ launch8.win.arr_inj c w
theorem P15_keep (c : Dev nD) (b : Ref sig .tc) (hb : b ≠ main_v152) : P15 m ρ c (Proc.devRef .tc b) = P14 m ρ c (Proc.devRef .tc b) :=
  step_keep cfgs (p := 8) _ _ launch8.win.arr_inj (A_eq8 _) (5 : Fin cfg8.W) (by decide) c b hb

/-- A buffer no host stretch writes and no region has for its output ends as launched. -/
theorem P15_launch (c : Dev nD) (b : Ref sig .tc) (h0 : b ∉ hostOps0_W) (h1 : b ∉ hostOps1_W) (h3 : b ∉ hostOps3_W) (h5 : b ∉ hostOps5_W) (h7 : b ∉ hostOps7_W) (h8 : b ∉ hostOps8_W)
    (hne : b ∉ ([main_v13, main_v44, main_v45, main_v76, main_v77, main_v108, main_v109, main_v140, main_v152] : List (Ref sig .tc))) :
    P15 m ρ c (Proc.devRef .tc b) = m ((c : Thread nD τ).loc b) := by
  have hn : ∀ x ∈ ([main_v13, main_v44, main_v45, main_v76, main_v77, main_v108, main_v109, main_v140, main_v152] : List (Ref sig .tc)), b ≠ x := fun x hx e => hne (e ▸ hx)
  exact (P15_keep m ρ c b (hn _ (by simp))).trans <| (StableHlo.after_of_writes_sub hostOps8 _ hostOps8_writes h8).trans <| (P13_keep m ρ c b (hn _ (by simp))).trans <| (StableHlo.after_of_writes_sub hostOps7 _ hostOps7_writes h7).trans <| (P11_keep m ρ c b (hn _ (by simp))).trans <| (P10_keep m ρ c b (hn _ (by simp))).trans <| (StableHlo.after_of_writes_sub hostOps5 _ hostOps5_writes h5).trans <| (P8_keep m ρ c b (hn _ (by simp))).trans <| (P7_keep m ρ c b (hn _ (by simp))).trans <| (StableHlo.after_of_writes_sub hostOps3 _ hostOps3_writes h3).trans <| (P5_keep m ρ c b (hn _ (by simp))).trans <| (P4_keep m ρ c b (hn _ (by simp))).trans <| (StableHlo.after_of_writes_sub hostOps1 _ hostOps1_writes h1).trans <| (P2_keep m ρ c b (hn _ (by simp))).trans <| (StableHlo.after_of_writes_sub hostOps0 _ hostOps0_writes h0).trans rfl

/-- Every pipeline's proof data, each at its region's entry contents. -/
def pdats : (p : Fin 9) → (c : Dev nD) → Dat τ (Elt F) Unit ℕ (UR sig nD τ) ℕ (cfgs p) c
  | ⟨0, _⟩ => dat0 (VV (P1 m ρ))
  | ⟨1, _⟩ => dat1 (VV (P3 m ρ))
  | ⟨2, _⟩ => dat2 (VV (P4 m ρ))
  | ⟨3, _⟩ => dat3 (VV (P6 m ρ))
  | ⟨4, _⟩ => dat4 (VV (P7 m ρ))
  | ⟨5, _⟩ => dat5 (VV (P9 m ρ))
  | ⟨6, _⟩ => dat6 (VV (P10 m ρ))
  | ⟨7, _⟩ => dat7 (VV (P12 m ρ))
  | ⟨8, _⟩ => dat8 (VV (P14 m ρ))
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev segs : List (Pipeline.Seg (pcfgs (F := F)) adm (pdats m ρ) () defs₀ Variants.none L lv) :=
  [ .host (hseg hostOps0 hostOps0_sub hostOps0_fresh (P0 m ρ)),
    .region (mkReg cfgs (pdats m ρ) defs₀ 0 (P1 m ρ) launch0 (body_obligation0 _) (fun _ _ => rfl) (fun _ _ => rfl) (fun _ _ => rfl) (A_eq0 _) (fun _ => .rfl) (fun _ => .rfl)),
    .host (hseg hostOps1 hostOps1_sub hostOps1_fresh (P2 m ρ)),
    .region (mkReg cfgs (pdats m ρ) defs₀ 1 (P3 m ρ) launch1 (body_obligation1 _) (fun _ _ => rfl) (fun _ _ => rfl) (fun _ _ => rfl) (A_eq1 _) (fun _ => .rfl) (fun _ => .rfl)),
    .region (mkReg cfgs (pdats m ρ) defs₀ 2 (P4 m ρ) launch2 (body_obligation2 _) (fun _ _ => rfl) (fun _ _ => rfl) (fun _ _ => rfl) (A_eq2 _) (fun _ => .rfl) (fun _ => .rfl)),
    .host (hseg hostOps3 hostOps3_sub hostOps3_fresh (P5 m ρ)),
    .region (mkReg cfgs (pdats m ρ) defs₀ 3 (P6 m ρ) launch3 (body_obligation3 _) (fun _ _ => rfl) (fun _ _ => rfl) (fun _ _ => rfl) (A_eq3 _) (fun _ => .rfl) (fun _ => .rfl)),
    .region (mkReg cfgs (pdats m ρ) defs₀ 4 (P7 m ρ) launch4 (body_obligation4 _) (fun _ _ => rfl) (fun _ _ => rfl) (fun _ _ => rfl) (A_eq4 _) (fun _ => .rfl) (fun _ => .rfl)),
    .host (hseg hostOps5 hostOps5_sub hostOps5_fresh (P8 m ρ)),
    .region (mkReg cfgs (pdats m ρ) defs₀ 5 (P9 m ρ) launch5 (body_obligation5 _) (fun _ _ => rfl) (fun _ _ => rfl) (fun _ _ => rfl) (A_eq5 _) (fun _ => .rfl) (fun _ => .rfl)),
    .region (mkReg cfgs (pdats m ρ) defs₀ 6 (P10 m ρ) launch6 (body_obligation6 _) (fun _ _ => rfl) (fun _ _ => rfl) (fun _ _ => rfl) (A_eq6 _) (fun _ => .rfl) (fun _ => .rfl)),
    .host (hseg hostOps7 hostOps7_sub hostOps7_fresh (P11 m ρ)),
    .region (mkReg cfgs (pdats m ρ) defs₀ 7 (P12 m ρ) launch7 (body_obligation7 _) (fun _ _ => rfl) (fun _ _ => rfl) (fun _ _ => rfl) (A_eq7 _) (fun _ => .rfl) (fun _ => .rfl)),
    .host (hseg hostOps8 hostOps8_sub hostOps8_fresh (P13 m ρ)),
    .region (mkReg cfgs (pdats m ρ) defs₀ 8 (P14 m ρ) launch8 (body_obligation8 _) (fun _ _ => rfl) (fun _ _ => rfl) (fun _ _ => rfl) (A_eq8 _) (hin8 _) (hout8 _)) ]

set_option backward.isDefEq.respectTransparency.types false in
/-- From any memory with zero counters every weakly fair execution of @main terminates, nothing faulting, and every final
    state holds every unscoped buffer of every core at P15. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = P15 m ρ c b) :=
  Pipeline.θ_run_regions_kit (pcfgs (F := F)) adm (pdats m ρ) () cellOf_inj emb₁ defs₀ Variants.none L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (P0 m ρ c) ∗ R c))
    (Tₙ := fun c => iprop(StableHlo.held (c : Thread nD τ) (Pipeline.ucRefs τ sig) (P15 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (P0 m ρ c)
        from Pipeline.unscopedBufs_held c (P0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = P15 m ρ c b)
    (hfin := fun c s' => by
      iintro ⟨⟨Hh, -⟩, HSI⟩
      unfold StableHlo.held
      imodintro
      iapply (pointsTo_read_all (Pipeline.ucRefs τ sig) (fun b => (((c : Thread nD τ)).1, b)) (P15 m ρ c) s')
      isplitl [Hh] <;> iassumption)
    (hQ := fun s h c => h c)

/-- The result buffer ends at the last region's final contents of its output array, and every argument array as launched. -/
theorem run_main : θ_run defs (onTc (τ := τ) (main (F := F))) ⟨m, fun _ => 0, ρ⟩ (fun r => ∀ c : Dev nD,
      r.2.mem ((c.tc : Thread nD τ).loc main_v152) = (dat8 (VV (P14 m ρ)) c).arrAt 5 cfg8.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    refine ⟨(h c _ (mem_uc main_v152 (by decide))).trans (P15_arr m ρ c 5), ?_, ?_, ?_, ?_, ?_, ?_, ?_, ?_, ?_, ?_, ?_, ?_, ?_⟩ <;>
    exact (h c _ (mem_uc _ (by decide))).trans
      (P15_launch m ρ c _ (by decide) (by decide) (by decide) (by decide) (by decide) (by decide) (by decide)))
    (run_all m ρ)

end Cert.KernelIdeal.Hand

end
-- ==== Proof.KI.HostDefs.lean ====
import proofs.«135318_j56487409877354_1_alg».proof.Proof.Gen.KernelIdeal.Launch

set_option maxRecDepth 8192

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

def kSrc (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

def kDst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

def kDeg (dst : (⟨S1600000, .i32⟩ : BufTy).Contents (Elt F)) : (⟨S100000, .f32⟩ : BufTy).Contents (Elt F) :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

def kDisq (dst : (⟨S1600000, .i32⟩ : BufTy).Contents (Elt F)) : (⟨S100000, .f32⟩ : BufTy).Contents (Elt F) :=
  Host.rsqrt (kDeg dst)

def kDinv (dst : (⟨S1600000, .i32⟩ : BufTy).Contents (Elt F)) : (⟨S100000, .f32⟩ : BufTy).Contents (Elt F) :=
  Host.divf (broadcastInDim S100000 ![] bcast_S_S100000 (constant S_ .f32 0x3F800000#32)) (kDeg dst)

def kWrap (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

def kNorm (src dst : (⟨S1600000, .i32⟩ : BufTy).Contents (Elt F)) (disq : (⟨S100000, .f32⟩ : BufTy).Contents (Elt F)) :
    (⟨S1600000, .f32⟩ : BufTy).Contents (Elt F) :=
  mulf (Host.gather gather_S100000_S1600000x1_S1600000_n_0_n_n_0_1_1 disq (kWrap src))
    (Host.gather gather_S100000_S1600000x1_S1600000_n_0_n_n_0_1_1 disq (kWrap dst))

def kAgg8 (src dst : (⟨S1600000, .i32⟩ : BufTy).Contents (Elt F)) (disq : (⟨S100000, .f32⟩ : BufTy).Contents (Elt F))
    (hw : (⟨S100000x8, .f32⟩ : BufTy).Contents (Elt F)) : (⟨S100000x8, .f32⟩ : BufTy).Contents (Elt F) :=
  Host.scatterAdd scatter_S100000x8_S1600000x1_S1600000x8_1_0_0_1
    (broadcastInDim S100000x8 ![] bcast_S_S100000x8 (constant S_ .f32 0x00000000#32))
    (broadcastInDim S1600000x1 ![0] bcast_S1600000_S1600000x1_0 dst)
    (mulf (Host.gather gather_S100000x8_S1600000x1_S1600000x8_1_0_n_n_0_1_18 hw (kWrap src))
      (broadcastInDim S1600000x8 ![0, 1] bcast_S1600000x1_S1600000x8_0_1
        (broadcastInDim S1600000x1 ![0] bcast_S1600000_S1600000x1_0 (kNorm src dst disq))))

def kAgg16 (src dst : (⟨S1600000, .i32⟩ : BufTy).Contents (Elt F)) (disq : (⟨S100000, .f32⟩ : BufTy).Contents (Elt F))
    (hw : (⟨S100000x16, .f32⟩ : BufTy).Contents (Elt F)) : (⟨S100000x16, .f32⟩ : BufTy).Contents (Elt F) :=
  Host.scatterAdd scatter_S100000x16_S1600000x1_S1600000x16_1_0_0_1
    (broadcastInDim S100000x16 ![] bcast_S_S100000x16 (constant S_ .f32 0x00000000#32))
    (broadcastInDim S1600000x1 ![0] bcast_S1600000_S1600000x1_0 dst)
    (mulf (Host.gather gather_S100000x16_S1600000x1_S1600000x16_1_0_n_n_0_1_116 hw (kWrap src))
      (broadcastInDim S1600000x16 ![0, 1] bcast_S1600000x1_S1600000x16_0_1
        (broadcastInDim S1600000x1 ![0] bcast_S1600000_S1600000x1_0 (kNorm src dst disq))))

def kAgg32 (src dst : (⟨S1600000, .i32⟩ : BufTy).Contents (Elt F)) (disq : (⟨S100000, .f32⟩ : BufTy).Contents (Elt F))
    (hw : (⟨S100000x32, .f32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 dst)
    (mulf (Host.gather gather_S100000x32_S1600000x1_S1600000x32_1_0_n_n_0_1_132 hw (kWrap src))
      (broadcastInDim S1600000x32 ![0, 1] bcast_S1600000x1_S1600000x32_0_1
        (broadcastInDim S1600000x1 ![0] bcast_S1600000_S1600000x1_0 (kNorm src dst disq))))

def kAgg64 (src dst : (⟨S1600000, .i32⟩ : BufTy).Contents (Elt F)) (disq : (⟨S100000, .f32⟩ : BufTy).Contents (Elt F))
    (hw : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 hw (kWrap src))
      (broadcastInDim S1600000x64 ![0, 1] bcast_S1600000x1_S1600000x64_0_1
        (broadcastInDim S1600000x1 ![0] bcast_S1600000_S1600000x1_0 (kNorm src dst disq))))

def kCinv (batch : (⟨S100000, .i32⟩ : BufTy).Contents (Elt F)) : (⟨S64, .f32⟩ : BufTy).Contents (Elt F) :=
  Host.divf (broadcastInDim S64 ![] bcast_S_S64 (constant S_ .f32 0x3F800000#32))
    (maximumf
      (Host.scatterAdd scatter_S64_S100000x1_S100000_n_0_0_1
        (broadcastInDim S64 ![] bcast_S_S64 (constant S_ .f32 0x00000000#32))
        (broadcastInDim S100000x1 ![0] bcast_S100000_S100000x1_0 batch)
        (broadcastInDim S100000 ![] bcast_S_S100000 (constant S_ .f32 0x3F800000#32)))
      (broadcastInDim S64 ![] bcast_S_S64 (constant S_ .f32 0x3F800000#32)))

end Cert.KernelIdeal.Hand
-- ==== Proof.KI.HostVals.lean ====
import proofs.«135318_j56487409877354_1_alg».proof.Proof.KI.HostDefs
import proofs.«135318_j56487409877354_1_alg».proof.Proof.Gen.KernelIdeal.Launch
import proofs.«135318_j56487409877354_1_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

variable (X : Valuation τ sig (Elt F))

theorem host0_v1 : StableHlo.after hostOps0 X (Proc.devRef .tc main_v1) = kSrc (X main_arg1) := by
  after_results; rfl

theorem host0_v3 : StableHlo.after hostOps0 X (Proc.devRef .tc main_v3) = kDst (X main_arg1) := by
  after_results; rfl

theorem host0_v10 : StableHlo.after hostOps0 X (Proc.devRef .tc main_v10) = kDisq (kDst (X main_arg1)) := by
  after_results; rfl

theorem host0_v12 : StableHlo.after hostOps0 X (Proc.devRef .tc main_v12) = kDinv (kDst (X main_arg1)) := by
  after_results; rfl

theorem host0_keep (r : Ref sig .tc) (h : r ∉ Gen.hostOps0_W) : StableHlo.after hostOps0 X r = X r :=
  StableHlo.after_of_writes_sub hostOps0 _ Gen.hostOps0_writes h

theorem host1_v41 : StableHlo.after hostOps1 X (Proc.devRef .tc main_v41) = kAgg8 (X main_v1) (X main_v3) (X main_v10) (X main_v13) := by
  after_results_simp; rfl

theorem host1_v42 : StableHlo.after hostOps1 X (Proc.devRef .tc main_v42) = shapeCast S100000x1 (X main_v12) shapeCasts_S100000_S100000x1 := by
  after_results_simp; rfl

theorem host1_v43 : StableHlo.after hostOps1 X (Proc.devRef .tc main_v43) = shapeCast S1x8 (X main_arg4) shapeCasts_S8_S1x8 := by
  after_results_simp; rfl

theorem host1_keep (r : Ref sig .tc) (h : r ∉ Gen.hostOps1_W) : StableHlo.after hostOps1 X r = X r :=
  StableHlo.after_of_writes_sub hostOps1 _ Gen.hostOps1_writes h

theorem host3_v73 : StableHlo.after hostOps3 X (Proc.devRef .tc main_v73) = kAgg16 (X main_v1) (X main_v3) (X main_v10) (X main_v45) := by
  after_results_simp; rfl

theorem host3_v74 : StableHlo.after hostOps3 X (Proc.devRef .tc main_v74) = shapeCast S100000x1 (X main_v12) shapeCasts_S100000_S100000x1 := by
  after_results_simp; rfl

theorem host3_v75 : StableHlo.after hostOps3 X (Proc.devRef .tc main_v75) = shapeCast S1x16 (X main_arg6) shapeCasts_S16_S1x16 := by
  after_results_simp; rfl

theorem host3_keep (r : Ref sig .tc) (h : r ∉ Gen.hostOps3_W) : StableHlo.after hostOps3 X r = X r :=
  StableHlo.after_of_writes_sub hostOps3 _ Gen.hostOps3_writes h

theorem host5_v105 : StableHlo.after hostOps5 X (Proc.devRef .tc main_v105) = kAgg32 (X main_v1) (X main_v3) (X main_v10) (X main_v77) := by
  after_results_simp; rfl

theorem host5_v106 : StableHlo.after hostOps5 X (Proc.devRef .tc main_v106) = shapeCast S100000x1 (X main_v12) shapeCasts_S100000_S100000x1 := by
  after_results_simp; rfl

theorem host5_v107 : StableHlo.after hostOps5 X (Proc.devRef .tc main_v107) = shapeCast S1x32 (X main_arg8) shapeCasts_S32_S1x32 := by
  after_results_simp; rfl

theorem host5_keep (r : Ref sig .tc) (h : r ∉ Gen.hostOps5_W) : StableHlo.after hostOps5 X r = X r :=
  StableHlo.after_of_writes_sub hostOps5 _ Gen.hostOps5_writes h

theorem host7_v137 : StableHlo.after hostOps7 X (Proc.devRef .tc main_v137) = kAgg64 (X main_v1) (X main_v3) (X main_v10) (X main_v109) := by
  after_results_simp; rfl

theorem host7_v138 : StableHlo.after hostOps7 X (Proc.devRef .tc main_v138) = shapeCast S100000x1 (X main_v12) shapeCasts_S100000_S100000x1 := by
  after_results_simp; rfl

theorem host7_v139 : StableHlo.after hostOps7 X (Proc.devRef .tc main_v139) = shapeCast S1x64 (X main_arg10) shapeCasts_S64_S1x64 := by
  after_results_simp; rfl

theorem host7_keep (r : Ref sig .tc) (h : r ∉ Gen.hostOps7_W) : StableHlo.after hostOps7 X r = X r :=
  StableHlo.after_of_writes_sub hostOps7 _ Gen.hostOps7_writes h

theorem host8_v149 : StableHlo.after hostOps8 X (Proc.devRef .tc main_v149) = shapeCast S64x1 (kCinv (X main_arg2)) shapeCasts_S64_S64x1 := by
  after_results; rfl

theorem host8_v150 : StableHlo.after hostOps8 X (Proc.devRef .tc main_v150) = shapeCast S100000x1 (X main_arg2) shapeCasts_S100000_S100000x1 := by
  after_results; rfl

theorem host8_v151 : StableHlo.after hostOps8 X (Proc.devRef .tc main_v151) = shapeCast S1x4 (X main_arg12) shapeCasts_S4_S1x4 := by
  after_results; rfl

theorem host8_keep (r : Ref sig .tc) (h : r ∉ Gen.hostOps8_W) : StableHlo.after hostOps8 X r = X r :=
  StableHlo.after_of_writes_sub hostOps8 _ Gen.hostOps8_writes h

end Cert.KernelIdeal.Hand
-- ==== Proof.LibRows2.lean ====
import Idealize.ShloMosaic.PureOps.Ideal
import Idealize.ShloMosaic.Lib.ValueIdx

noncomputable section

open scoped BigOperators

namespace Cert.LibRows2

open Idealize.ShloMosaic Idealize.ShloMosaic.ValueIdx

abbrev rowScatterDims2 (N E B : Nat)
    (wf : ScatterDims.WF ⟨2, ![N, B]⟩ ⟨2, ![E, 1]⟩ ⟨2, ![E, B]⟩ [1] [0] [0] 1) :
    ScatterDims ⟨2, ![N, B]⟩ ⟨2, ![E, 1]⟩ ⟨2, ![E, B]⟩ where
  updateWindowDims := [1]
  insertedWindowDims := [0]
  scatterDimsToOperandDims := [0]
  indexVectorDim := 1
  wf := wf

section Coordinates

variable {N E B w : Nat} (wf : ScatterDims.WF ⟨2, ![N, B]⟩ ⟨2, ![E, 1]⟩ ⟨2, ![E, B]⟩ [1] [0] [0] 1)

theorem start_row (j : (⟨2, ![E, B]⟩ : Shape).Idx) (idx : IVec ⟨2, ![E, 1]⟩ w) :
    (rowScatterDims2 N E B wf).start j idx 0 = (idx (ix2 (j 0) ⟨0, Nat.one_pos⟩)).toInt := by
  unfold ScatterDims.start
  rw [dif_pos (show (0 : Fin 2) ∈ (rowScatterDims2 N E B wf).scatterDimsToOperandDims from
    List.mem_singleton.mpr rfl)]
  have hsi : (rowScatterDims2 N E B wf).siIdx j
      ⟨List.idxOf (0 : Fin 2) (rowScatterDims2 N E B wf).scatterDimsToOperandDims,
        List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

theorem start_col (j : (⟨2, ![E, B]⟩ : Shape).Idx) (idx : IVec ⟨2, ![E, 1]⟩ w) :
    (rowScatterDims2 N E B wf).start j idx 1 = 0 := by
  unfold ScatterDims.start
  rw [dif_neg (show (1 : Fin 2) ∉ (rowScatterDims2 N E B wf).scatterDimsToOperandDims from
    (by decide : (1 : Fin 2) ∉ ([0] : List (Fin 2))))]

theorem window_row (j : (⟨2, ![E, B]⟩ : Shape).Idx) : (rowScatterDims2 N E B wf).window j 0 = 0 := by
  unfold ScatterDims.window
  rw [dif_neg (show (0 : Fin 2) ∉ (rowScatterDims2 N E B wf).sKept by
    simp [ScatterDims.sKept, Shape.kept, List.mem_filter])]

theorem window_col (j : (⟨2, ![E, B]⟩ : Shape).Idx) : (rowScatterDims2 N E B wf).window j 1 = (j 1).val := by
  unfold ScatterDims.window
  rw [dif_pos (show (1 : Fin 2) ∈ (rowScatterDims2 N E B wf).sKept by
    simp [ScatterDims.sKept, Shape.kept, List.mem_filter])]
  rfl

theorem resultIdx?_eq_some_iff (j : (⟨2, ![E, B]⟩ : Shape).Idx) (idx : IVec ⟨2, ![E, 1]⟩ w)
    (i : (⟨2, ![N, B]⟩ : Shape).Idx) :
    (rowScatterDims2 N E B wf).resultIdx? j idx = some i ↔
      (idx (ix2 (j 0) ⟨0, Nat.one_pos⟩)).toInt = ((i 0).val : Int) ∧ j 1 = i 1 := by
  have hs0 := start_row wf j idx
  have hs1 := start_col wf j idx
  have hw0 := window_row wf j
  have hw1 := window_col wf j
  have hi0 := idx2_lt0 i
  have hi1 := idx2_lt1 i
  have hj1 := idx2_lt1 j
  unfold ScatterDims.resultIdx?
  by_cases hall : ∀ a, 0 ≤ (rowScatterDims2 N E B wf).start j idx a + (rowScatterDims2 N E B wf).window j a ∧
      (rowScatterDims2 N E B wf).start j idx a + (rowScatterDims2 N E B wf).window j a
        < (⟨2, ![N, B]⟩ : Shape).size a
  · rw [dif_pos hall]
    constructor
    · intro h
      have h' := Option.some.inj h
      have h0 : ((rowScatterDims2 N E B wf).start j idx 0 + (rowScatterDims2 N E B wf).window j 0).toNat
          = (i 0).val := congrArg (fun f => (f 0).val) h'
      have h1 : ((rowScatterDims2 N E B wf).start j idx 1 + (rowScatterDims2 N E B wf).window j 1).toNat
          = (i 1).val := congrArg (fun f => (f 1).val) h'
      have ha0 := (hall 0).1
      rw [hs0, hw0] at h0 ha0
      rw [hs1, hw1] at h1
      refine ⟨by omega, Fin.ext (by omega)⟩
    · rintro ⟨h0, h1⟩
      congr 1
      funext a
      refine Fin.ext ?_
      match a with
      | ⟨0, _⟩ =>
        show ((rowScatterDims2 N E B wf).start j idx 0 + (rowScatterDims2 N E B wf).window j 0).toNat = (i 0).val
        rw [hs0, hw0, h0]; omega
      | ⟨1, _⟩ =>
        show ((rowScatterDims2 N E B wf).start j idx 1 + (rowScatterDims2 N E B wf).window j 1).toNat = (i 1).val
        rw [hs1, hw1, h1]; omega
  · rw [dif_neg hall]
    constructor
    · intro h; cases h
    · rintro ⟨h0, h1⟩
      refine absurd ?_ hall
      intro a
      match a with
      | ⟨0, _⟩ =>
        show 0 ≤ (rowScatterDims2 N E B wf).start j idx 0 + (rowScatterDims2 N E B wf).window j 0 ∧
          (rowScatterDims2 N E B wf).start j idx 0 + (rowScatterDims2 N E B wf).window j 0 < (N : Int)
        rw [hs0, hw0, h0]; omega
      | ⟨1, _⟩ =>
        show 0 ≤ (rowScatterDims2 N E B wf).start j idx 1 + (rowScatterDims2 N E B wf).window j 1 ∧
          (rowScatterDims2 N E B wf).start j idx 1 + (rowScatterDims2 N E B wf).window j 1 < (B : Int)
        rw [hs1, hw1]; omega

theorem resultIdx?_ix2 (e : Fin E) (b : Fin B) (idx : IVec ⟨2, ![E, 1]⟩ w) (i : (⟨2, ![N, B]⟩ : Shape).Idx) :
    (rowScatterDims2 N E B wf).resultIdx? (ix2 e b) idx = some i ↔
      (idx (ix2 e ⟨0, Nat.one_pos⟩)).toInt = ((i 0).val : Int) ∧ b = i 1 :=
  resultIdx?_eq_some_iff wf (ix2 e b) idx i

end Coordinates

theorem rowScatterAdd2_apply_of {N E B w : Nat}
    {wf : ScatterDims.WF ⟨2, ![N, B]⟩ ⟨2, ![E, 1]⟩ ⟨2, ![E, B]⟩ [1] [0] [0] 1}
    (d : ScatterDims ⟨2, ![N, B]⟩ ⟨2, ![E, 1]⟩ ⟨2, ![E, B]⟩) (hd : d = rowScatterDims2 N E B wf)
    (x : (⟨2, ![N, B]⟩ : Shape).Idx → EReal) (idx : IVec ⟨2, ![E, 1]⟩ w)
    (upd : (⟨2, ![E, B]⟩ : Shape).Idx → EReal) (i : (⟨2, ![N, B]⟩ : Shape).Idx) :
    Ideal.hostScatterAdd d x idx upd i =
      x i + ∑ e ∈ Finset.univ.filter (fun e : Fin E =>
        (idx (ix2 e ⟨0, Nat.one_pos⟩)).toInt = ((i 0).val : Int)), upd (ix2 e (i 1)) := by
  subst hd
  unfold Ideal.hostScatterAdd
  congr 1
  rw [Finset.sum_filter, sum_idx2, Finset.sum_filter]
  refine Finset.sum_congr rfl fun e _ => ?_
  by_cases h : (idx (ix2 e ⟨0, Nat.one_pos⟩)).toInt = ((i 0).val : Int)
  · rw [if_pos h]
    refine (Finset.sum_eq_single (ι := Fin B) (i 1) ?_ ?_).trans ?_
    rotate_left 2
    · rw [if_pos ((resultIdx?_ix2 wf e (i 1) idx i).2 ⟨h, rfl⟩)]
    · intro b _ hb
      rw [if_neg]
      intro hr
      exact hb ((resultIdx?_ix2 wf e b idx i).1 hr).2
    · intro hn
      exact absurd (Finset.mem_univ _) hn
  · rw [if_neg h]
    refine Finset.sum_eq_zero fun b _ => ?_
    rw [if_neg]
    intro hr
    exact h ((resultIdx?_ix2 wf e b idx i).1 hr).1

end Cert.LibRows2

end
-- ==== Proof.KI.KSpec.lean ====
import proofs.«135318_j56487409877354_1_alg».proof.Proof.KI.HostDefs
import proofs.«135318_j56487409877354_1_alg».proof.Proof.LibRows2
import Idealize.ShloMosaic.PureOps.Ideal

noncomputable section

namespace Cert.KernelIdeal.Hand

open Cert.KernelIdeal Cert.KernelIdeal.Gen Idealize.ShloMosaic

theorem kz64 : S_.BroadcastsInDim S64x64 (![] : Fin 0 → Fin S64x64.rank) := by decide
theorem kgcol : S64x1.BroadcastsInDim S64x64 (![0, 1] : Fin 2 → Fin S64x64.rank) := by decide
theorem kgrow : S1x4.BroadcastsInDim S64x4 (![0, 1] : Fin 2 → Fin S64x4.rank) := by decide
theorem kwf : ScatterDims.WF (⟨2, ![64, 64]⟩ : Shape) ⟨2, ![100000, 1]⟩ ⟨2, ![100000, 64]⟩ [1] [0] [0] 1 := by decide

/-- A layer's combination at any width: agg + hw scaled row by row by col, plus the row broadcast down. -/
def kComb {n : ℕ} (hc : S100000x1.BroadcastsInDim ⟨2, ![100000, n]⟩ ![0, 1]) (hr : (⟨2, ![1, n]⟩ : Shape).BroadcastsInDim ⟨2, ![100000, n]⟩ ![0, 1])
    (agg hw : FVec Ideal ⟨2, ![100000, n]⟩ .f32) (col : FVec Ideal S100000x1 .f32) (row : FVec Ideal ⟨2, ![1, n]⟩ .f32) :
    FVec Ideal ⟨2, ![100000, n]⟩ .f32 :=
  addf (addf agg (mulf hw (broadcastInDim _ ![0, 1] hc col))) (broadcastInDim _ ![0, 1] hr row)

def kPool (bcol : IVec S100000x1 32) (h : FVec Ideal S100000x64 .f32) (cinv : FVec Ideal S64x1 .f32) (wl : FVec Ideal S64x4 .f32) (blrow : FVec Ideal S1x4 .f32) : FVec Ideal S64x4 .f32 :=
  addf (Host.dotGeneral (F := Ideal) (DotDims.plain 64 64 4) none
          (mulf (Host.scatterAdd (F := Ideal) (Cert.LibRows2.rowScatterDims2 64 100000 64 kwf) (broadcastInDim S64x64 ![] kz64 (constant S_ .f32 0x00000000#32)) bcol h)
                (broadcastInDim S64x64 ![0, 1] kgcol cinv))
          wl)
       (broadcastInDim S64x4 ![0, 1] kgrow blrow)

variable (x : FVec Ideal S100000x8 .f32) (e : IVec S2x1600000 32) (bt : IVec S100000 32)
  (w1 : FVec Ideal S8x8 .f32) (b1 : FVec Ideal S8 .f32) (w2 : FVec Ideal S8x16 .f32) (b2 : FVec Ideal S16 .f32)
  (w3 : FVec Ideal S16x32 .f32) (b3 : FVec Ideal S32 .f32) (w4 : FVec Ideal S32x64 .f32) (b4 : FVec Ideal S64 .f32)
  (wl : FVec Ideal S64x4 .f32) (bl : FVec Ideal S4 .f32)

def tSrc := kSrc (F := Ideal) e
def tDst := kDst (F := Ideal) e
def tDisq := kDisq (F := Ideal) (tDst e)
def tCol : FVec Ideal S100000x1 .f32 := shapeCast S100000x1 (kDinv (F := Ideal) (tDst e)) shapeCasts_S100000_S100000x1
def tHw1 : FVec Ideal S100000x8 .f32 := Host.dotGeneral (F := Ideal) (DotDims.plain 100000 8 8) none x w1
def tH1 : FVec Ideal S100000x8 .f32 :=
  Host.tanh (F := Ideal) (kComb (by decide) (by decide) (kAgg8 (F := Ideal) (tSrc e) (tDst e) (tDisq e) (tHw1 x w1)) (tHw1 x w1) (tCol e) (shapeCast S1x8 b1 shapeCasts_S8_S1x8))
def tHw2 : FVec Ideal S100000x16 .f32 := Host.dotGeneral (F := Ideal) (DotDims.plain 100000 8 16) none (tH1 x e w1 b1) w2
def tH2 : FVec Ideal S100000x16 .f32 :=
  Host.tanh (F := Ideal) (kComb (by decide) (by decide) (kAgg16 (F := Ideal) (tSrc e) (tDst e) (tDisq e) (tHw2 x e w1 b1 w2)) (tHw2 x e w1 b1 w2) (tCol e) (shapeCast S1x16 b2 shapeCasts_S16_S1x16))
def tHw3 : FVec Ideal S100000x32 .f32 := Host.dotGeneral (F := Ideal) (DotDims.plain 100000 16 32) none (tH2 x e w1 b1 w2 b2) w3
def tH3 : FVec Ideal S100000x32 .f32 :=
  Host.tanh (F := Ideal) (kComb (by decide) (by decide) (kAgg32 (F := Ideal) (tSrc e) (tDst e) (tDisq e) (tHw3 x e w1 b1 w2 b2 w3)) (tHw3 x e w1 b1 w2 b2 w3) (tCol e) (shapeCast S1x32 b3 shapeCasts_S32_S1x32))
def tHw4 : FVec Ideal S100000x64 .f32 := Host.dotGeneral (F := Ideal) (DotDims.plain 100000 32 64) none (tH3 x e w1 b1 w2 b2 w3 b3) w4
def tH4 : FVec Ideal S100000x64 .f32 :=
  kComb (by decide) (by decide) (kAgg64 (F := Ideal) (tSrc e) (tDst e) (tDisq e) (tHw4 x e w1 b1 w2 b2 w3 b3 w4)) (tHw4 x e w1 b1 w2 b2 w3 b3 w4) (tCol e) (shapeCast S1x64 b4 shapeCasts_S64_S1x64)

def kRes : FVec Ideal S64x4 .f32 :=
  kPool (shapeCast S100000x1 bt shapeCasts_S100000_S100000x1) (tH4 x e w1 b1 w2 b2 w3 b3 w4 b4)
    (shapeCast S64x1 (kCinv (F := Ideal) bt) shapeCasts_S64_S64x1) wl (shapeCast S1x4 bl shapeCasts_S4_S1x4)

end Cert.KernelIdeal.Hand

end
-- ==== Proof.LibDenseLayer.lean ====
import proofs.«135318_j56487409877354_1_alg».proof.Proof.LibBlocks

noncomputable section

open scoped BigOperators

namespace Cert.LibDenseLayer

open Idealize.ShloMosaic Idealize.ShloMosaic.ValueIdx

variable {n N K b : Nat}

theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

end Cert.LibDenseLayer

end
-- ==== Proof.LibMatmulVal.lean ====
import proofs.«135318_j56487409877354_1_alg».proof.Proof.LibDenseLayer

noncomputable section

namespace Cert.LibMatmulVal

open Idealize.ShloMosaic Idealize.ShloMosaic.ValueIdx

variable {m R k n : Nat}

-- A row of the product depends on the same row of the left factor only: both sides sum left (row, k) times right (k, column) over k.
theorem product_at (dk : DotDims ⟨2, ![m, k]⟩ ⟨2, ![k, n]⟩ ⟨2, ![m, n]⟩) (hdk : dk = DotDims.plain m k n) (hlt : FTy.bf16.bits < FTy.f32.bits)
    (x0 : FVec Ideal ⟨2, ![m, k]⟩ .f32) (x1 : FVec Ideal ⟨2, ![k, n]⟩ .f32) (H : FVec Ideal ⟨2, ![R, k]⟩ .f32)
    (j : (⟨2, ![m, n]⟩ : Shape).Idx) (i : (⟨2, ![R, n]⟩ : Shape).Idx) (hq : (i 1).val = (j 1).val)
    (h : ∀ a, x0 (ix2 (j 0) a) = H (ix2 (i 0) a)) :
    matmul dk none (truncf .bf16 x0 hlt) (truncf .bf16 x1 hlt) (constant ⟨2, ![m, n]⟩ .f32 0x00000000#32) j
      = Host.dotGeneral (F := Ideal) (φ₁ := .f32) (φ₂ := .f32) (DotDims.plain R k n) none H x1 i := by
  rw [eq_ix2 j, eq_ix2 i, show i 1 = j 1 from Fin.ext hq]
  exact Cert.LibDenseLayer.product_entry dk hdk (DotDims.plain R k n) rfl hlt x0 H x1 _ _ h _

end Cert.LibMatmulVal

end
-- ==== Proof.KI.Val0.lean ====
import proofs.«135318_j56487409877354_1_alg».proof.Proof.KI.Reg0
import proofs.«135318_j56487409877354_1_alg».proof.Proof.LibMatmulVal
import Idealize.ShloMosaic.Lib.Pipeline.Value

noncomputable section

namespace Cert.KernelIdeal.Hand

open Cert.KernelIdeal Cert.KernelIdeal.Gen Idealize.ShloMosaic Idealize.ShloMosaic.TcCoe
open Idealize.ShloMosaic.ValueIdx
open Cert.LibBlocks (row_in_block)

variable (V : (c : Dev nD) → (b : Ref sig .tc) → Buf (Elt Ideal) ((c : Thread nD τ).loc b)) (c : Dev nD)

theorem block_index0 : ∀ t : Fin cfg0.N, win0_0.index t (0 : Fin 2) = t.val ∧ win0_0.index t (1 : Fin 2) = 0
    ∧ (∀ a : Fin 2, win0_1.index t a = 0) ∧ win0_2.index t (0 : Fin 2) = t.val ∧ win0_2.index t (1 : Fin 2) = 0 :=
  (by decide +kernel : ∀ t : Fin grid0.N, _)

-- The right factor's one block is its whole array.
theorem right_block0 (t : Fin cfg0.N) : iblk0 V c 1 t = (V c main_arg3 : FVec Ideal S8x8 .f32) :=
  funext fun y => congrArg (V c main_arg3) (funext fun a =>
    Fin.ext (win0_1.rect_emb_val_of_index_zero t a ((block_index0 t).2.2.1 a) y))

-- Row r lies in block r / 5000, so the 20 blocks of rows cover the array.
theorem rows_covered0 (i : S100000x8.Idx) :
    ∃ t : Fin cfg0.N, (cfg0.win 2).flush t = true ∧ i ∈ ((cfg0.win 2).blk t).view.set := by
  obtain ⟨hb, hlo, hhi⟩ := row_in_block (nb := 20) (bs := 5000) (by decide) (i 0).isLt
  obtain ⟨t, ht⟩ : ∃ t : Fin cfg0.N, t.val = (i 0).val / 5000 := ⟨⟨_, hb⟩, rfl⟩
  obtain ⟨-, -, -, e4, e5⟩ := block_index0 t
  refine ⟨t, flush0_2 t, ?_⟩
  show i ∈ ((View.whole main_v13).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; omega
  | ⟨1, _⟩ => have := idx2_lt1 i; show win0_2.index t (1 : Fin 2) * 8 ≤ (i 1).val ∧ (i 1).val < win0_2.index t (1 : Fin 2) * 8 + 8; omega

-- Row p of block t is row 5000 t + p of the array, for the left factor and for the product alike, so block t of the product is the product of block t of the left factor.
theorem final0 :
    ((dat0 V c).arrAt 2 cfg0.N : Vec Ideal S100000x8 .f32)
      = Host.dotGeneral (F := Ideal) (φ₁ := .f32) (φ₂ := .f32) (DotDims.plain 100000 8 8) none
          (V c main_arg0 : FVec Ideal S100000x8 .f32) (V c main_arg3 : FVec Ideal S8x8 .f32) :=
  (dat0 V c).arrAt_eq_of_cover 2 _ (fun t _ => by
    obtain ⟨e0, e1, -, e4, e5⟩ := block_index0 t
    show (cfg0.win 2).cut _ ((dat0 V c).after 2 t) = _
    dsimp only [dat0, out0_2]
    have z : (![0, 0] : Fin 2 → Nat) = fun _ => 0 := funext fun a => by fin_cases a <;> rfl
    rw [View.canon_unit_zero z, View.ld_unit_zero z, View.ld_unit_zero z, right_block0]
    funext j
    simp only [k0_pay1, shapeCast_self]
    refine Cert.LibMatmulVal.product_at dot_S5000x8_S8x8_S5000x8_1_0_0_1_n_n rfl bitsLt_bf16_f32 _ _ _ j _ ?_ fun k =>
      congrArg (V c main_arg0) (funext fun a => Fin.ext ?_)
    · exact win0_2.rect_emb_val_of_index_zero t 1 e5 j
    · match a with
      | ⟨0, _⟩ => show win0_0.index t (0 : Fin 2) * 5000 + 1 * (j 0).val = win0_2.index t (0 : Fin 2) * 5000 + 1 * (j 0).val; rw [e0, e4]
      | ⟨1, _⟩ => exact win0_0.rect_emb_val_of_index_zero t 1 e1 _) rows_covered0

end Cert.KernelIdeal.Hand

end
-- ==== Proof.KI.Val1.lean ====
import proofs.«135318_j56487409877354_1_alg».proof.Proof.KI.Reg1
import proofs.«135318_j56487409877354_1_alg».proof.Proof.LibBlockOps
import proofs.«135318_j56487409877354_1_alg».proof.Proof.LibCombine
import Idealize.ShloMosaic.Lib.Pipeline.Value
import Idealize.ShloMosaic.Lib.ValueIdx

noncomputable section
namespace Cert.KernelIdeal.Hand

open Cert.KernelIdeal Cert.KernelIdeal.Gen Cert.Proof.Pure Cert.LibCombine
open Idealize.ShloMosaic Idealize.ShloMosaic.TcCoe Idealize.ShloMosaic.ValueIdx

variable (V : (c : Dev nD) → (b : Ref sig .tc) → Buf (Elt Ideal) ((c : Thread nD τ).loc b))

theorem hcol8 : S100000x1.BroadcastsInDim S100000x8 (![0, 1] : Fin 2 → Fin S100000x8.rank) := by decide
theorem hrow8 : S1x8.BroadcastsInDim S100000x8 (![0, 1] : Fin 2 → Fin S100000x8.rank) := by decide

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row r of the output lies in block r / 5000, so the blocks cover it. -/
theorem covered1 (i : S100000x8.Idx) :
    ∃ t : Fin cfg1.N, (cfg1.win 4).flush t = true ∧ i ∈ ((cfg1.win 4).blk t).view.set := by
  have hi0 : (i 0).val < 20 * 5000 := idx2_lt0 i
  have hi1 : (i 1).val < 8 := idx2_lt1 i
  obtain ⟨t, ht⟩ : ∃ t : Fin cfg1.N, t.val = (i 0).val / 5000 := ⟨⟨(i 0).val / 5000, lt_of_lt_of_eq (by omega) N_1.symm⟩, rfl⟩
  obtain ⟨-, -, -, -, -, -, -, -, e0, e1⟩ := idx_facts1 t
  refine ⟨t, flush1_4 t, ?_⟩
  show i ∈ ((View.whole main_v44).slice (win1_4.rect t)).set
  rw [View.set_slice_whole, Rect.mem_set_unit]
  exact Fin.forall_fin_two.2 ⟨show _ * 5000 ≤ (i 0).val ∧ (i 0).val < _ * 5000 + 5000 by rw [e0]; omega,
    show _ * 8 ≤ (i 1).val ∧ (i 1).val < _ * 8 + 8 by rw [e1]; omega⟩

/-- Point t writes back block t of the whole-array term: row p of each row block is row 5000 t + p of its array, and the bias block is the bias row. -/
theorem final1 (c : Dev nD) :
    (dat1 (F := Ideal) V c).arrAt 4 cfg1.N
      = Host.tanh (F := Ideal) (s := S100000x8) (φ := .f32) (addf (F := Ideal) (s := S100000x8) (φ := .f32)
          (addf (F := Ideal) (s := S100000x8) (φ := .f32) (V c main_v41)
            (mulf (F := Ideal) (s := S100000x8) (φ := .f32) (V c main_v13)
              (broadcastInDim (s := S100000x1) (α := Ideal .f32) S100000x8 ![0, 1] hcol8 (V c main_v42))))
          (broadcastInDim (s := S1x8) (α := Ideal .f32) S100000x8 ![0, 1] hrow8 (V c main_v43))) :=
  (dat1 V c).arrAt_eq_of_cover 4 _ (fun t _ => by
    show (cfg1.win 4).cut (grid1.coords t) ((dat1 V c).after 4 t) = _
    dsimp only [dat1, out1_4]
    rw [View.canon_unit_zero hz]
    simp only [View.ld_unit_zero (S := S5000x8) hz, View.ld_unit_zero (S := S5000x1) hz, View.ld_unit_zero (S := S1x8) hz]
    funext j
    unfold k1_pay1
    simp only [shapeCast_self]
    exact combine_block Ideal.tanh (Host.tanh (F := Ideal)) (fun _ _ => rfl) broadcasts_S5000x1_S5000x8 broadcasts_S1x8_S5000x8 hcol8 hrow8
      (V c main_v41) (V c main_v13) (V c main_v42) (V c main_v43) (win1_0.rect t).emb (win1_1.rect t).emb (win1_4.rect t).emb
      (win1_2.rect t).emb (win1_3.rect t).emb _ _ _ _ _ t.val (win1_0.rect_emb_val t) (win1_1.rect_emb_val t) (win1_2.rect_emb_val t)
      (win1_3.rect_emb_val t) (win1_4.rect_emb_val t) (idx_facts1 t) j) covered1

end Cert.KernelIdeal.Hand
-- ==== Proof.KI.Val2.lean ====
import proofs.«135318_j56487409877354_1_alg».proof.Proof.KI.Reg2
import proofs.«135318_j56487409877354_1_alg».proof.Proof.LibMatmulVal
import Idealize.ShloMosaic.Lib.Pipeline.Value

noncomputable section

namespace Cert.KernelIdeal.Hand

open Cert.KernelIdeal Cert.KernelIdeal.Gen Idealize.ShloMosaic Idealize.ShloMosaic.TcCoe
open Idealize.ShloMosaic.ValueIdx
open Cert.LibBlocks (row_in_block)

variable (V : (c : Dev nD) → (b : Ref sig .tc) → Buf (Elt Ideal) ((c : Thread nD τ).loc b)) (c : Dev nD)

theorem block_index2 : ∀ t : Fin cfg2.N, win2_0.index t (0 : Fin 2) = t.val ∧ win2_0.index t (1 : Fin 2) = 0
    ∧ (∀ a : Fin 2, win2_1.index t a = 0) ∧ win2_2.index t (0 : Fin 2) = t.val ∧ win2_2.index t (1 : Fin 2) = 0 :=
  (by decide +kernel : ∀ t : Fin grid2.N, _)

-- The right factor's one block is its whole array.
theorem right_block2 (t : Fin cfg2.N) : iblk2 V c 1 t = (V c main_arg5 : FVec Ideal S8x16 .f32) :=
  funext fun y => congrArg (V c main_arg5) (funext fun a =>
    Fin.ext (win2_1.rect_emb_val_of_index_zero t a ((block_index2 t).2.2.1 a) y))

-- Row r lies in block r / 5000, so the 20 blocks of rows cover the array.
theorem rows_covered2 (i : S100000x16.Idx) :
    ∃ t : Fin cfg2.N, (cfg2.win 2).flush t = true ∧ i ∈ ((cfg2.win 2).blk t).view.set := by
  obtain ⟨hb, hlo, hhi⟩ := row_in_block (nb := 20) (bs := 5000) (by decide) (i 0).isLt
  obtain ⟨t, ht⟩ : ∃ t : Fin cfg2.N, t.val = (i 0).val / 5000 := ⟨⟨_, hb⟩, rfl⟩
  obtain ⟨-, -, -, e4, e5⟩ := block_index2 t
  refine ⟨t, flush2_2 t, ?_⟩
  show i ∈ ((View.whole main_v45).slice (win2_2.rect t)).set
  rw [View.set_slice_whole, Rect.mem_set_unit]
  intro a
  match a with
  | ⟨0, _⟩ => show win2_2.index t (0 : Fin 2) * 5000 ≤ (i 0).val ∧ (i 0).val < win2_2.index t (0 : Fin 2) * 5000 + 5000; omega
  | ⟨1, _⟩ => have := idx2_lt1 i; show win2_2.index t (1 : Fin 2) * 16 ≤ (i 1).val ∧ (i 1).val < win2_2.index t (1 : Fin 2) * 16 + 16; omega

-- Row p of block t is row 5000 t + p of the array, for the left factor and for the product alike, so block t of the product is the product of block t of the left factor.
theorem final2 :
    ((dat2 V c).arrAt 2 cfg2.N : Vec Ideal S100000x16 .f32)
      = Host.dotGeneral (F := Ideal) (φ₁ := .f32) (φ₂ := .f32) (DotDims.plain 100000 8 16) none
          (V c main_v44 : FVec Ideal S100000x8 .f32) (V c main_arg5 : FVec Ideal S8x16 .f32) :=
  (dat2 V c).arrAt_eq_of_cover 2 _ (fun t _ => by
    obtain ⟨e0, e1, -, e4, e5⟩ := block_index2 t
    show (cfg2.win 2).cut _ ((dat2 V c).after 2 t) = _
    dsimp only [dat2, out2_2]
    have z : (![0, 0] : Fin 2 → Nat) = fun _ => 0 := funext fun a => by fin_cases a <;> rfl
    rw [View.canon_unit_zero z, View.ld_unit_zero z, View.ld_unit_zero z, right_block2]
    funext j
    simp only [k2_pay1, shapeCast_self]
    refine Cert.LibMatmulVal.product_at dot_S5000x8_S8x16_S5000x16_1_0_0_1_n_n rfl bitsLt_bf16_f32 _ _ _ j _ ?_ fun k =>
      congrArg (V c main_v44) (funext fun a => Fin.ext ?_)
    · exact win2_2.rect_emb_val_of_index_zero t 1 e5 j
    · match a with
      | ⟨0, _⟩ => show win2_0.index t (0 : Fin 2) * 5000 + 1 * (j 0).val = win2_2.index t (0 : Fin 2) * 5000 + 1 * (j 0).val; rw [e0, e4]
      | ⟨1, _⟩ => exact win2_0.rect_emb_val_of_index_zero t 1 e1 _) rows_covered2

end Cert.KernelIdeal.Hand

end
-- ==== Proof.KI.Val3.lean ====
import proofs.«135318_j56487409877354_1_alg».proof.Proof.KI.Reg3
import proofs.«135318_j56487409877354_1_alg».proof.Proof.LibBlockOps
import proofs.«135318_j56487409877354_1_alg».proof.Proof.LibCombine
import Idealize.ShloMosaic.Lib.Pipeline.Value
import Idealize.ShloMosaic.Lib.ValueIdx

noncomputable section
namespace Cert.KernelIdeal.Hand

open Cert.KernelIdeal Cert.KernelIdeal.Gen Cert.Proof.Pure Cert.LibCombine
open Idealize.ShloMosaic Idealize.ShloMosaic.TcCoe Idealize.ShloMosaic.ValueIdx

variable (V : (c : Dev nD) → (b : Ref sig .tc) → Buf (Elt Ideal) ((c : Thread nD τ).loc b))

theorem hcol16 : S100000x1.BroadcastsInDim S100000x16 (![0, 1] : Fin 2 → Fin S100000x16.rank) := by decide
theorem hrow16 : S1x16.BroadcastsInDim S100000x16 (![0, 1] : Fin 2 → Fin S100000x16.rank) := by decide

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row r of the output lies in block r / 5000, so the blocks cover it. -/
theorem covered3 (i : S100000x16.Idx) :
    ∃ t : Fin cfg3.N, (cfg3.win 4).flush t = true ∧ i ∈ ((cfg3.win 4).blk t).view.set := by
  have hi0 : (i 0).val < 20 * 5000 := idx2_lt0 i
  have hi1 : (i 1).val < 16 := idx2_lt1 i
  obtain ⟨t, ht⟩ : ∃ t : Fin cfg3.N, t.val = (i 0).val / 5000 := ⟨⟨(i 0).val / 5000, lt_of_lt_of_eq (by omega) N_3.symm⟩, rfl⟩
  obtain ⟨-, -, -, -, -, -, -, -, e0, e1⟩ := idx_facts3 t
  refine ⟨t, flush3_4 t, ?_⟩
  show i ∈ ((View.whole main_v76).slice (win3_4.rect t)).set
  rw [View.set_slice_whole, Rect.mem_set_unit]
  exact Fin.forall_fin_two.2 ⟨show _ * 5000 ≤ (i 0).val ∧ (i 0).val < _ * 5000 + 5000 by rw [e0]; omega,
    show _ * 16 ≤ (i 1).val ∧ (i 1).val < _ * 16 + 16 by rw [e1]; omega⟩

/-- Point t writes back block t of the whole-array term: row p of each row block is row 5000 t + p of its array, and the bias block is the bias row. -/
theorem final3 (c : Dev nD) :
    (dat3 (F := Ideal) V c).arrAt 4 cfg3.N
      = Host.tanh (F := Ideal) (s := S100000x16) (φ := .f32) (addf (F := Ideal) (s := S100000x16) (φ := .f32)
          (addf (F := Ideal) (s := S100000x16) (φ := .f32) (V c main_v73)
            (mulf (F := Ideal) (s := S100000x16) (φ := .f32) (V c main_v45)
              (broadcastInDim (s := S100000x1) (α := Ideal .f32) S100000x16 ![0, 1] hcol16 (V c main_v74))))
          (broadcastInDim (s := S1x16) (α := Ideal .f32) S100000x16 ![0, 1] hrow16 (V c main_v75))) :=
  (dat3 V c).arrAt_eq_of_cover 4 _ (fun t _ => by
    show (cfg3.win 4).cut (grid3.coords t) ((dat3 V c).after 4 t) = _
    dsimp only [dat3, out3_4]
    rw [View.canon_unit_zero hz]
    simp only [View.ld_unit_zero (S := S5000x16) hz, View.ld_unit_zero (S := S5000x1) hz, View.ld_unit_zero (S := S1x16) hz]
    funext j
    unfold k3_pay1
    simp only [shapeCast_self]
    exact combine_block Ideal.tanh (Host.tanh (F := Ideal)) (fun _ _ => rfl) broadcasts_S5000x1_S5000x16 broadcasts_S1x16_S5000x16 hcol16 hrow16
      (V c main_v73) (V c main_v45) (V c main_v74) (V c main_v75) (win3_0.rect t).emb (win3_1.rect t).emb (win3_4.rect t).emb
      (win3_2.rect t).emb (win3_3.rect t).emb _ _ _ _ _ t.val (win3_0.rect_emb_val t) (win3_1.rect_emb_val t) (win3_2.rect_emb_val t)
      (win3_3.rect_emb_val t) (win3_4.rect_emb_val t) (idx_facts3 t) j) covered3

end Cert.KernelIdeal.Hand
-- ==== Proof.KI.Val4.lean ====
import proofs.«135318_j56487409877354_1_alg».proof.Proof.KI.Reg4
import proofs.«135318_j56487409877354_1_alg».proof.Proof.LibMatmulVal
import Idealize.ShloMosaic.Lib.Pipeline.Value

noncomputable section

namespace Cert.KernelIdeal.Hand

open Cert.KernelIdeal Cert.KernelIdeal.Gen Idealize.ShloMosaic Idealize.ShloMosaic.TcCoe
open Idealize.ShloMosaic.ValueIdx
open Cert.LibBlocks (row_in_block)

variable (V : (c : Dev nD) → (b : Ref sig .tc) → Buf (Elt Ideal) ((c : Thread nD τ).loc b)) (c : Dev nD)

theorem block_index4 : ∀ t : Fin cfg4.N, win4_0.index t (0 : Fin 2) = t.val ∧ win4_0.index t (1 : Fin 2) = 0
    ∧ (∀ a : Fin 2, win4_1.index t a = 0) ∧ win4_2.index t (0 : Fin 2) = t.val ∧ win4_2.index t (1 : Fin 2) = 0 :=
  (by decide +kernel : ∀ t : Fin grid4.N, _)

-- The right factor's one block is its whole array.
theorem right_block4 (t : Fin cfg4.N) : iblk4 V c 1 t = (V c main_arg7 : FVec Ideal S16x32 .f32) :=
  funext fun y => congrArg (V c main_arg7) (funext fun a =>
    Fin.ext (win4_1.rect_emb_val_of_index_zero t a ((block_index4 t).2.2.1 a) y))

-- Row r lies in block r / 5000, so the 20 blocks of rows cover the array.
theorem rows_covered4 (i : S100000x32.Idx) :
    ∃ t : Fin cfg4.N, (cfg4.win 2).flush t = true ∧ i ∈ ((cfg4.win 2).blk t).view.set := by
  obtain ⟨hb, hlo, hhi⟩ := row_in_block (nb := 20) (bs := 5000) (by decide) (i 0).isLt
  obtain ⟨t, ht⟩ : ∃ t : Fin cfg4.N, t.val = (i 0).val / 5000 := ⟨⟨_, hb⟩, rfl⟩
  obtain ⟨-, -, -, e4, e5⟩ := block_index4 t
  refine ⟨t, flush4_2 t, ?_⟩
  show i ∈ ((View.whole main_v77).slice (win4_2.rect t)).set
  rw [View.set_slice_whole, Rect.mem_set_unit]
  intro a
  match a with
  | ⟨0, _⟩ => show win4_2.index t (0 : Fin 2) * 5000 ≤ (i 0).val ∧ (i 0).val < win4_2.index t (0 : Fin 2) * 5000 + 5000; omega
  | ⟨1, _⟩ => have := idx2_lt1 i; show win4_2.index t (1 : Fin 2) * 32 ≤ (i 1).val ∧ (i 1).val < win4_2.index t (1 : Fin 2) * 32 + 32; omega

-- Row p of block t is row 5000 t + p of the array, for the left factor and for the product alike, so block t of the product is the product of block t of the left factor.
theorem final4 :
    ((dat4 V c).arrAt 2 cfg4.N : Vec Ideal S100000x32 .f32)
      = Host.dotGeneral (F := Ideal) (φ₁ := .f32) (φ₂ := .f32) (DotDims.plain 100000 16 32) none
          (V c main_v76 : FVec Ideal S100000x16 .f32) (V c main_arg7 : FVec Ideal S16x32 .f32) :=
  (dat4 V c).arrAt_eq_of_cover 2 _ (fun t _ => by
    obtain ⟨e0, e1, -, e4, e5⟩ := block_index4 t
    show (cfg4.win 2).cut _ ((dat4 V c).after 2 t) = _
    dsimp only [dat4, out4_2]
    have z : (![0, 0] : Fin 2 → Nat) = fun _ => 0 := funext fun a => by fin_cases a <;> rfl
    rw [View.canon_unit_zero z, View.ld_unit_zero z, View.ld_unit_zero z, right_block4]
    funext j
    simp only [k4_pay1, shapeCast_self]
    refine Cert.LibMatmulVal.product_at dot_S5000x16_S16x32_S5000x32_1_0_0_1_n_n rfl bitsLt_bf16_f32 _ _ _ j _ ?_ fun k =>
      congrArg (V c main_v76) (funext fun a => Fin.ext ?_)
    · exact win4_2.rect_emb_val_of_index_zero t 1 e5 j
    · match a with
      | ⟨0, _⟩ => show win4_0.index t (0 : Fin 2) * 5000 + 1 * (j 0).val = win4_2.index t (0 : Fin 2) * 5000 + 1 * (j 0).val; rw [e0, e4]
      | ⟨1, _⟩ => exact win4_0.rect_emb_val_of_index_zero t 1 e1 _) rows_covered4

end Cert.KernelIdeal.Hand

end
-- ==== Proof.KI.Val5.lean ====
import proofs.«135318_j56487409877354_1_alg».proof.Proof.KI.Reg5
import proofs.«135318_j56487409877354_1_alg».proof.Proof.LibBlockOps
import proofs.«135318_j56487409877354_1_alg».proof.Proof.LibCombine
import Idealize.ShloMosaic.Lib.Pipeline.Value
import Idealize.ShloMosaic.Lib.ValueIdx

noncomputable section
namespace Cert.KernelIdeal.Hand

open Cert.KernelIdeal Cert.KernelIdeal.Gen Cert.Proof.Pure Cert.LibCombine
open Idealize.ShloMosaic Idealize.ShloMosaic.TcCoe Idealize.ShloMosaic.ValueIdx

variable (V : (c : Dev nD) → (b : Ref sig .tc) → Buf (Elt Ideal) ((c : Thread nD τ).loc b))

theorem hcol32 : S100000x1.BroadcastsInDim S100000x32 (![0, 1] : Fin 2 → Fin S100000x32.rank) := by decide
theorem hrow32 : S1x32.BroadcastsInDim S100000x32 (![0, 1] : Fin 2 → Fin S100000x32.rank) := by decide

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row r of the output lies in block r / 5000, so the blocks cover it. -/
theorem covered5 (i : S100000x32.Idx) :
    ∃ t : Fin cfg5.N, (cfg5.win 4).flush t = true ∧ i ∈ ((cfg5.win 4).blk t).view.set := by
  have hi0 : (i 0).val < 20 * 5000 := idx2_lt0 i
  have hi1 : (i 1).val < 32 := idx2_lt1 i
  obtain ⟨t, ht⟩ : ∃ t : Fin cfg5.N, t.val = (i 0).val / 5000 := ⟨⟨(i 0).val / 5000, lt_of_lt_of_eq (by omega) N_5.symm⟩, rfl⟩
  obtain ⟨-, -, -, -, -, -, -, -, e0, e1⟩ := idx_facts5 t
  refine ⟨t, flush5_4 t, ?_⟩
  show i ∈ ((View.whole main_v108).slice (win5_4.rect t)).set
  rw [View.set_slice_whole, Rect.mem_set_unit]
  exact Fin.forall_fin_two.2 ⟨show _ * 5000 ≤ (i 0).val ∧ (i 0).val < _ * 5000 + 5000 by rw [e0]; omega,
    show _ * 32 ≤ (i 1).val ∧ (i 1).val < _ * 32 + 32 by rw [e1]; omega⟩

/-- Point t writes back block t of the whole-array term: row p of each row block is row 5000 t + p of its array, and the bias block is the bias row. -/
theorem final5 (c : Dev nD) :
    (dat5 (F := Ideal) V c).arrAt 4 cfg5.N
      = Host.tanh (F := Ideal) (s := S100000x32) (φ := .f32) (addf (F := Ideal) (s := S100000x32) (φ := .f32)
          (addf (F := Ideal) (s := S100000x32) (φ := .f32) (V c main_v105)
            (mulf (F := Ideal) (s := S100000x32) (φ := .f32) (V c main_v77)
              (broadcastInDim (s := S100000x1) (α := Ideal .f32) S100000x32 ![0, 1] hcol32 (V c main_v106))))
          (broadcastInDim (s := S1x32) (α := Ideal .f32) S100000x32 ![0, 1] hrow32 (V c main_v107))) :=
  (dat5 V c).arrAt_eq_of_cover 4 _ (fun t _ => by
    show (cfg5.win 4).cut (grid5.coords t) ((dat5 V c).after 4 t) = _
    dsimp only [dat5, out5_4]
    rw [View.canon_unit_zero hz]
    simp only [View.ld_unit_zero (S := S5000x32) hz, View.ld_unit_zero (S := S5000x1) hz, View.ld_unit_zero (S := S1x32) hz]
    funext j
    unfold k5_pay1
    simp only [shapeCast_self]
    exact combine_block Ideal.tanh (Host.tanh (F := Ideal)) (fun _ _ => rfl) broadcasts_S5000x1_S5000x32 broadcasts_S1x32_S5000x32 hcol32 hrow32
      (V c main_v105) (V c main_v77) (V c main_v106) (V c main_v107) (win5_0.rect t).emb (win5_1.rect t).emb (win5_4.rect t).emb
      (win5_2.rect t).emb (win5_3.rect t).emb _ _ _ _ _ t.val (win5_0.rect_emb_val t) (win5_1.rect_emb_val t) (win5_2.rect_emb_val t)
      (win5_3.rect_emb_val t) (win5_4.rect_emb_val t) (idx_facts5 t) j) covered5

end Cert.KernelIdeal.Hand
-- ==== Proof.KI.Val6.lean ====
import proofs.«135318_j56487409877354_1_alg».proof.Proof.KI.Reg6
import proofs.«135318_j56487409877354_1_alg».proof.Proof.LibMatmulVal
import Idealize.ShloMosaic.Lib.Pipeline.Value

noncomputable section

namespace Cert.KernelIdeal.Hand

open Cert.KernelIdeal Cert.KernelIdeal.Gen Idealize.ShloMosaic Idealize.ShloMosaic.TcCoe
open Idealize.ShloMosaic.ValueIdx
open Cert.LibBlocks (row_in_block)

variable (V : (c : Dev nD) → (b : Ref sig .tc) → Buf (Elt Ideal) ((c : Thread nD τ).loc b)) (c : Dev nD)

theorem block_index6 : ∀ t : Fin cfg6.N, win6_0.index t (0 : Fin 2) = t.val ∧ win6_0.index t (1 : Fin 2) = 0
    ∧ (∀ a : Fin 2, win6_1.index t a = 0) ∧ win6_2.index t (0 : Fin 2) = t.val ∧ win6_2.index t (1 : Fin 2) = 0 :=
  (by decide +kernel : ∀ t : Fin grid6.N, _)

-- The right factor's one block is its whole array.
theorem right_block6 (t : Fin cfg6.N) : iblk6 V c 1 t = (V c main_arg9 : FVec Ideal S32x64 .f32) :=
  funext fun y => congrArg (V c main_arg9) (funext fun a =>
    Fin.ext (win6_1.rect_emb_val_of_index_zero t a ((block_index6 t).2.2.1 a) y))

-- Row r lies in block r / 5000, so the 20 blocks of rows cover the array.
theorem rows_covered6 (i : S100000x64.Idx) :
    ∃ t : Fin cfg6.N, (cfg6.win 2).flush t = true ∧ i ∈ ((cfg6.win 2).blk t).view.set := by
  obtain ⟨hb, hlo, hhi⟩ := row_in_block (nb := 20) (bs := 5000) (by decide) (i 0).isLt
  obtain ⟨t, ht⟩ : ∃ t : Fin cfg6.N, t.val = (i 0).val / 5000 := ⟨⟨_, hb⟩, rfl⟩
  obtain ⟨-, -, -, e4, e5⟩ := block_index6 t
  refine ⟨t, flush6_2 t, ?_⟩
  show i ∈ ((View.whole main_v109).slice (win6_2.rect t)).set
  rw [View.set_slice_whole, Rect.mem_set_unit]
  intro a
  match a with
  | ⟨0, _⟩ => show win6_2.index t (0 : Fin 2) * 5000 ≤ (i 0).val ∧ (i 0).val < win6_2.index t (0 : Fin 2) * 5000 + 5000; omega
  | ⟨1, _⟩ => have := idx2_lt1 i; show win6_2.index t (1 : Fin 2) * 64 ≤ (i 1).val ∧ (i 1).val < win6_2.index t (1 : Fin 2) * 64 + 64; omega

-- Row p of block t is row 5000 t + p of the array, for the left factor and for the product alike, so block t of the product is the product of block t of the left factor.
theorem final6 :
    ((dat6 V c).arrAt 2 cfg6.N : Vec Ideal S100000x64 .f32)
      = Host.dotGeneral (F := Ideal) (φ₁ := .f32) (φ₂ := .f32) (DotDims.plain 100000 32 64) none
          (V c main_v108 : FVec Ideal S100000x32 .f32) (V c main_arg9 : FVec Ideal S32x64 .f32) :=
  (dat6 V c).arrAt_eq_of_cover 2 _ (fun t _ => by
    obtain ⟨e0, e1, -, e4, e5⟩ := block_index6 t
    show (cfg6.win 2).cut _ ((dat6 V c).after 2 t) = _
    dsimp only [dat6, out6_2]
    have z : (![0, 0] : Fin 2 → Nat) = fun _ => 0 := funext fun a => by fin_cases a <;> rfl
    rw [View.canon_unit_zero z, View.ld_unit_zero z, View.ld_unit_zero z, right_block6]
    funext j
    simp only [k6_pay1, shapeCast_self]
    refine Cert.LibMatmulVal.product_at dot_S5000x32_S32x64_S5000x64_1_0_0_1_n_n rfl bitsLt_bf16_f32 _ _ _ j _ ?_ fun k =>
      congrArg (V c main_v108) (funext fun a => Fin.ext ?_)
    · exact win6_2.rect_emb_val_of_index_zero t 1 e5 j
    · match a with
      | ⟨0, _⟩ => show win6_0.index t (0 : Fin 2) * 5000 + 1 * (j 0).val = win6_2.index t (0 : Fin 2) * 5000 + 1 * (j 0).val; rw [e0, e4]
      | ⟨1, _⟩ => exact win6_0.rect_emb_val_of_index_zero t 1 e1 _) rows_covered6

end Cert.KernelIdeal.Hand

end
-- ==== Proof.KI.Val7.lean ====
import proofs.«135318_j56487409877354_1_alg».proof.Proof.KI.Reg7
import proofs.«135318_j56487409877354_1_alg».proof.Proof.LibBlockOps
import proofs.«135318_j56487409877354_1_alg».proof.Proof.LibCombine
import Idealize.ShloMosaic.Lib.Pipeline.Value
import Idealize.ShloMosaic.Lib.ValueIdx

noncomputable section
namespace Cert.KernelIdeal.Hand

open Cert.KernelIdeal Cert.KernelIdeal.Gen Cert.Proof.Pure Cert.LibCombine
open Idealize.ShloMosaic Idealize.ShloMosaic.TcCoe Idealize.ShloMosaic.ValueIdx

variable (V : (c : Dev nD) → (b : Ref sig .tc) → Buf (Elt Ideal) ((c : Thread nD τ).loc b))

theorem hcol64 : S100000x1.BroadcastsInDim S100000x64 (![0, 1] : Fin 2 → Fin S100000x64.rank) := by decide
theorem hrow64 : S1x64.BroadcastsInDim S100000x64 (![0, 1] : Fin 2 → Fin S100000x64.rank) := by decide

theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Row r of the output lies in block r / 5000, so the blocks cover it. -/
theorem covered7 (i : S100000x64.Idx) :
    ∃ t : Fin cfg7.N, (cfg7.win 4).flush t = true ∧ i ∈ ((cfg7.win 4).blk t).view.set := by
  have hi0 : (i 0).val < 20 * 5000 := idx2_lt0 i
  have hi1 : (i 1).val < 64 := idx2_lt1 i
  obtain ⟨t, ht⟩ : ∃ t : Fin cfg7.N, t.val = (i 0).val / 5000 := ⟨⟨(i 0).val / 5000, lt_of_lt_of_eq (by omega) N_7.symm⟩, rfl⟩
  obtain ⟨-, -, -, -, -, -, -, -, e0, e1⟩ := idx_facts7 t
  refine ⟨t, flush7_4 t, ?_⟩
  show i ∈ ((View.whole main_v140).slice (win7_4.rect t)).set
  rw [View.set_slice_whole, Rect.mem_set_unit]
  exact Fin.forall_fin_two.2 ⟨show _ * 5000 ≤ (i 0).val ∧ (i 0).val < _ * 5000 + 5000 by rw [e0]; omega,
    show _ * 64 ≤ (i 1).val ∧ (i 1).val < _ * 64 + 64 by rw [e1]; omega⟩

/-- Point t writes back block t of the whole-array term: row p of each row block is row 5000 t + p of its array, and the bias block is the bias row. -/
theorem final7 (c : Dev nD) :
    (dat7 (F := Ideal) V c).arrAt 4 cfg7.N
      = (addf (F := Ideal) (s := S100000x64) (φ := .f32)
          (addf (F := Ideal) (s := S100000x64) (φ := .f32) (V c main_v137)
            (mulf (F := Ideal) (s := S100000x64) (φ := .f32) (V c main_v109)
              (broadcastInDim (s := S100000x1) (α := Ideal .f32) S100000x64 ![0, 1] hcol64 (V c main_v138))))
          (broadcastInDim (s := S1x64) (α := Ideal .f32) S100000x64 ![0, 1] hrow64 (V c main_v139))) :=
  (dat7 V c).arrAt_eq_of_cover 4 _ (fun t _ => by
    show (cfg7.win 4).cut (grid7.coords t) ((dat7 V c).after 4 t) = _
    dsimp only [dat7, out7_4]
    rw [View.canon_unit_zero hz]
    simp only [View.ld_unit_zero (S := S5000x64) hz, View.ld_unit_zero (S := S5000x1) hz, View.ld_unit_zero (S := S1x64) hz]
    funext j
    unfold k7_pay1
    simp only [shapeCast_self]
    exact combine_block id id (fun _ _ => rfl) broadcasts_S5000x1_S5000x64 broadcasts_S1x64_S5000x64 hcol64 hrow64
      (V c main_v137) (V c main_v109) (V c main_v138) (V c main_v139) (win7_0.rect t).emb (win7_1.rect t).emb (win7_4.rect t).emb
      (win7_2.rect t).emb (win7_3.rect t).emb _ _ _ _ _ t.val (win7_0.rect_emb_val t) (win7_1.rect_emb_val t) (win7_2.rect_emb_val t)
      (win7_3.rect_emb_val t) (win7_4.rect_emb_val t) (idx_facts7 t) j) covered7

end Cert.KernelIdeal.Hand
-- ==== Proof.LibOneHot.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.LibOneHot

open Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sitofp_extui_cmpi_eq (x y : BitVec 32) (hlt : 1 < 32) :
    FloatOps.sitofp (F := Ideal) .f32 ((IntOp.cmpi .eq x y).setWidth 32) = if x = y then (1 : EReal) else 0 := by
  show (((BitVec.setWidth 32 (BitVec.ofBool (x == y))).toInt : ℝ) : EReal) = _
  by_cases h : x = y
  · rw [if_pos h, h, beq_self_eq_true]
    have e : (BitVec.setWidth 32 (BitVec.ofBool true)).toInt = 1 := by decide
    rw [e]; simp
  · rw [if_neg h, (beq_eq_false_iff_ne).2 h]
    have e : (BitVec.setWidth 32 (BitVec.ofBool false)).toInt = 0 := by decide
    rw [e]; simp

theorem oneHot_apply {n T : Nat}
    (hc : (⟨2, ![n, 1]⟩ : Shape).ShapeCasts ⟨2, ![n, 1]⟩) (hb : (⟨2, ![n, 1]⟩ : Shape).Broadcasts ⟨2, ![n, T]⟩)
    (hi : (⟨2, ![n, T]⟩ : Shape).Iotas .tc 32 [1]) (hlt : 1 < 32)
    (v : IVec ⟨2, ![n, 1]⟩ 32) (r : Fin n) (t : Fin T) :
    (sitofp .f32 (extui 32 (cmpi .eq (broadcastTo ⟨2, ![n, T]⟩ (shapeCast ⟨2, ![n, 1]⟩ v hc) hb)
        (iota .tc ⟨2, ![n, T]⟩ 32 [1] hi)) hlt) : FVec Ideal ⟨2, ![n, T]⟩ .f32) (ix2 r t)
      = if v (ix2 r (0 : Fin 1)) = BitVec.ofNat 32 t.val then (1 : EReal) else 0 := by
  rw [sitofp_apply, extui_apply]
  show FloatOps.sitofp (F := Ideal) .f32 ((IntOp.cmpi .eq
      (broadcastTo ⟨2, ![n, T]⟩ (shapeCast ⟨2, ![n, 1]⟩ v hc) hb (ix2 r t))
      (iota .tc ⟨2, ![n, T]⟩ 32 [1] hi (ix2 r t))).setWidth 32) = _
  rw [shapeCast_self, broadcastTo_a1_ab_apply, iota_single_apply, sitofp_extui_cmpi_eq _ _ hlt]
  rfl

section Rows

variable {n B D : Nat}

def rowsContracted (n B D : Nat) : DotDims ⟨2, ![n, B]⟩ ⟨2, ![n, D]⟩ ⟨2, ![B, D]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

theorem rows_lhsIdx (b : Fin B) (q : Fin D) (i : Fin n) :
    (rowsContracted n B D).lhsIdx (ix2 b q) ((contrEquiv1 (rowsContracted n B D) n rfl rfl).symm i) = ix2 i b := by
  have hk := contrEquiv1_symm_val (rowsContracted n B D) n rfl rfl i
  funext a
  refine Fin.ext ?_
  match a with
  | ⟨0, _⟩ =>
    exact ((rowsContracted n B D).lhsIdx_val_of_single (cl := 0) rfl (ix2 b q) _).trans hk
  | ⟨1, _⟩ =>
    show ((rowsContracted n B D).lhsIdx (ix2 b q) _ 1).val = b.val
    unfold DotDims.lhsIdx
    rw [dif_neg (show ¬(1 : Fin (⟨2, ![n, B]⟩ : Shape).rank) ∈ (rowsContracted n B D).lhsBatch from List.not_mem_nil),
      dif_pos (show (1 : Fin (⟨2, ![n, B]⟩ : Shape).rank) ∈ (rowsContracted n B D).lhsNonContracting from List.mem_singleton.mpr rfl)]
    rfl

theorem rows_rhsIdx (b : Fin B) (q : Fin D) (i : Fin n) :
    (rowsContracted n B D).rhsIdx (ix2 b q) ((contrEquiv1 (rowsContracted n B D) n rfl rfl).symm i) = ix2 i q := by
  have hk := contrEquiv1_symm_val (rowsContracted n B D) n rfl rfl i
  funext a
  refine Fin.ext ?_
  match a with
  | ⟨0, _⟩ =>
    exact ((rowsContracted n B D).rhsIdx_val_of_single (cr := 0) rfl (ix2 b q) _).trans hk
  | ⟨1, _⟩ =>
    show ((rowsContracted n B D).rhsIdx (ix2 b q) _ 1).val = q.val
    unfold DotDims.rhsIdx
    rw [dif_neg (show ¬(1 : Fin (⟨2, ![n, D]⟩ : Shape).rank) ∈ (rowsContracted n B D).rhsBatch from List.not_mem_nil),
      dif_pos (show (1 : Fin (⟨2, ![n, D]⟩ : Shape).rank) ∈ (rowsContracted n B D).rhsNonContracting from List.mem_singleton.mpr rfl)]
    rfl

theorem matmul_rows_apply {φ₁ φ₂ : FTy} (d : DotDims ⟨2, ![n, B]⟩ ⟨2, ![n, D]⟩ ⟨2, ![B, D]⟩) (hd : d = rowsContracted n B D)
    (prec : Option ContractPrecision) (l : FVec Ideal ⟨2, ![n, B]⟩ φ₁) (r : FVec Ideal ⟨2, ![n, D]⟩ φ₂) (b : Fin B) (q : Fin D) :
    FloatOps.matmul d prec l r (constant ⟨2, ![B, D]⟩ .f32 0x00000000#32) (ix2 b q) = ∑ i : Fin n, l (ix2 i b) * r (ix2 i q) := by
  subst hd
  rw [Ideal.matmul_constant_zero_apply, ← Equiv.sum_comp (contrEquiv1 (rowsContracted n B D) n rfl rfl).symm]
  refine Finset.sum_congr rfl fun i _ => ?_
  rw [rows_lhsIdx, rows_rhsIdx]

end Rows

theorem sum_blocks {M : Type*} [AddCommMonoid M] (nb bs : Nat) (f : Nat → M) :
    ∑ t : Fin nb, ∑ r : Fin bs, f (bs * t.val + r.val) = ∑ m : Fin (nb * bs), f m.val := by
  rw [← Equiv.sum_comp (finProdFinEquiv (m := nb) (n := bs)) (fun m => f m.val), Fintype.sum_prod_type]
  refine Finset.sum_congr rfl fun t _ => Finset.sum_congr rfl fun r _ => ?_
  show f (bs * t.val + r.val) = f (r.val + bs * t.val)
  rw [Nat.add_comm]

end Cert.LibOneHot

end
-- ==== Proof.LibBlockSum.lean ====
import Mathlib.Algebra.BigOperators.Fin
import Mathlib.Algebra.BigOperators.Group.Finset.Basic
import Mathlib.Data.Fintype.Basic
import Mathlib.Data.EReal.Basic
import Mathlib.Tactic.Ring
import Mathlib.Tactic.NormNum

namespace Cert.LibBlockSum

open scoped BigOperators

variable {M : Type*} [AddCommMonoid M] {N : ℕ}

def partialSum (f : Fin N → M) (m : ℕ) : M :=
  ∑ k ∈ Finset.univ.filter (fun k : Fin N => k.val < m), f k

theorem partialSum_zero (f : Fin N → M) : partialSum f 0 = 0 := by
  unfold partialSum
  rw [Finset.filter_false_of_mem (fun k _ => Nat.not_lt_zero k.val), Finset.sum_empty]

theorem partialSum_succ (f : Fin N → M) {m : ℕ} (h : m < N) :
    partialSum f (m + 1) = partialSum f m + f ⟨m, h⟩ := by
  unfold partialSum
  have hins : Finset.univ.filter (fun k : Fin N => k.val < m + 1)
      = insert (⟨m, h⟩ : Fin N) (Finset.univ.filter (fun k : Fin N => k.val < m)) := by
    ext k
    simp only [Finset.mem_filter, Finset.mem_univ, true_and, Finset.mem_insert, Fin.ext_iff]
    omega
  have hnot : (⟨m, h⟩ : Fin N) ∉ Finset.univ.filter (fun k : Fin N => k.val < m) := by
    simp only [Finset.mem_filter, Finset.mem_univ, true_and]
    omega
  rw [hins, Finset.sum_insert hnot, add_comm]

theorem partialSum_add (f : Fin N → M) (m b : ℕ) (h : m + b ≤ N) :
    partialSum f (m + b) = partialSum f m + ∑ r : Fin b, f ⟨m + r.val, lt_of_lt_of_le (by omega) h⟩ := by
  induction b with
  | zero => simp
  | succ b ih =>
    have hb : m + b ≤ N := by omega
    have hlt : m + b < N := by omega
    show partialSum f (m + b + 1) = _
    rw [partialSum_succ f hlt, ih hb, Fin.sum_univ_castSucc, add_assoc]
    rfl

theorem partialSum_of_le (f : Fin N → M) {m : ℕ} (h : N ≤ m) : partialSum f m = ∑ k, f k := by
  unfold partialSum
  rw [Finset.filter_true_of_mem (fun k _ => lt_of_lt_of_le k.isLt h)]

variable {n b : ℕ}

theorem block_lt (hN : n * b = N) {t r : ℕ} (ht : t < n) (hr : r < b) : b * t + r < N := by
  calc b * t + r < b * t + b := by omega
    _ = b * (t + 1) := by ring
    _ ≤ b * n := Nat.mul_le_mul_left b ht
    _ = N := by rw [Nat.mul_comm, hN]

theorem blocks_le (hN : n * b = N) {t : ℕ} (ht : t ≤ n) : b * t ≤ N := by
  calc b * t ≤ b * n := Nat.mul_le_mul_left b ht
    _ = N := by rw [Nat.mul_comm, hN]

def blockSum (hN : n * b = N) (f : Fin N → M) (t : Fin n) : M :=
  ∑ r : Fin b, f ⟨b * t.val + r.val, block_lt hN t.isLt r.isLt⟩

theorem partialSum_block_succ (hN : n * b = N) (f : Fin N → M) (t : Fin n) :
    partialSum f (b * (t.val + 1)) = partialSum f (b * t.val) + blockSum hN f t := by
  have h : b * t.val + b ≤ N := by
    have := blocks_le hN (t := t.val + 1) t.isLt
    rwa [Nat.mul_succ] at this
  rw [show b * (t.val + 1) = b * t.val + b from Nat.mul_succ b t.val, partialSum_add f (b * t.val) b h]
  rfl

theorem partialSum_blocks (hN : n * b = N) (f : Fin N → M) {t : ℕ} (ht : t ≤ n) :
    partialSum f (b * t) = ∑ s : Fin t, blockSum hN f ⟨s.val, lt_of_lt_of_le s.isLt ht⟩ := by
  induction t with
  | zero => rw [Nat.mul_zero, partialSum_zero, Fin.sum_univ_zero]
  | succ t ih =>
    have htn : t < n := ht
    rw [partialSum_block_succ hN f ⟨t, htn⟩, ih (Nat.le_of_lt htn), Fin.sum_univ_castSucc]
    rfl

theorem sum_blocks (hN : n * b = N) (f : Fin N → M) : ∑ k, f k = ∑ t : Fin n, blockSum hN f t := by
  rw [← partialSum_of_le f (le_of_eq (by rw [Nat.mul_comm, hN] : N = b * n)), partialSum_blocks hN f le_rfl]

def blockAcc (hN : n * b = N) (f : Fin N → M) : ℕ → M
  | 0 => 0
  | t + 1 => blockAcc hN f t + (if h : t < n then blockSum hN f ⟨t, h⟩ else 0)

@[simp] theorem blockAcc_zero (hN : n * b = N) (f : Fin N → M) : blockAcc hN f 0 = 0 := rfl

theorem blockAcc_succ (hN : n * b = N) (f : Fin N → M) {t : ℕ} (h : t < n) :
    blockAcc hN f (t + 1) = blockAcc hN f t + blockSum hN f ⟨t, h⟩ := by
  show blockAcc hN f t + (if h : t < n then blockSum hN f ⟨t, h⟩ else 0) = _
  rw [dif_pos h]

theorem blockAcc_succ' (hN : n * b = N) (f : Fin N → M) {t : ℕ} (h : t < n) :
    blockAcc hN f (t + 1)
      = blockAcc hN f t + ∑ r : Fin b, f ⟨b * t + r.val, block_lt hN h r.isLt⟩ :=
  blockAcc_succ hN f h

theorem blockAcc_eq_partialSum (hN : n * b = N) (f : Fin N → M) {t : ℕ} (ht : t ≤ n) :
    blockAcc hN f t = partialSum f (b * t) := by
  induction t with
  | zero => rw [Nat.mul_zero, partialSum_zero, blockAcc_zero]
  | succ t ih =>
    have htn : t < n := ht
    rw [blockAcc_succ hN f htn, ih (Nat.le_of_lt htn), partialSum_block_succ hN f ⟨t, htn⟩]

theorem blockAcc_last (hN : n * b = N) (f : Fin N → M) : blockAcc hN f n = ∑ k, f k := by
  rw [blockAcc_eq_partialSum hN f le_rfl]
  exact partialSum_of_le f (le_of_eq (by rw [Nat.mul_comm, hN]))

end Cert.LibBlockSum
-- ==== Proof.KI.Val8Pure.lean ====
import proofs.«135318_j56487409877354_1_alg».proof.Proof.Gen.KernelIdeal.Skeleton
import proofs.«135318_j56487409877354_1_alg».proof.Proof.LibOneHot
import proofs.«135318_j56487409877354_1_alg».proof.Proof.LibBlockSum
import proofs.«135318_j56487409877354_1_alg».proof.Proof.LibRows2
import proofs.«135318_j56487409877354_1_alg».proof.Proof.LibBlocks
import proofs.«135318_j56487409877354_1_alg».proof.Proof.LibDenseLayer
import proofs.«135318_j56487409877354_1_alg».proof.Proof.LibBlockOps
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

theorem wf8 : ScatterDims.WF ⟨2, ![64, 64]⟩ ⟨2, ![100000, 1]⟩ ⟨2, ![100000, 64]⟩ [1] [0] [0] 1 := by decide
theorem hgz64 : S_.BroadcastsInDim S64x64 ![] := by decide
theorem hgcol64 : S64x1.BroadcastsInDim S64x64 ![0, 1] := by decide
theorem hgrow4 : S1x4.BroadcastsInDim S64x4 ![0, 1] := by decide

theorem poolDims_eq : dot_S5000x64_S5000x64_S64x64_0_0_1_1_n_n = Cert.LibOneHot.rowsContracted 5000 64 64 := rfl
theorem poolHeadDims_eq : dot_S64x64_S64x4_S64x4_1_0_0_1_n_n = DotDims.plain 64 64 4 := rfl

theorem poolZero_apply (g f : Fin 64) : (k8_pay1 (F := Ideal)) (ix2 g f) = 0 := by
  unfold k8_pay1
  rw [shapeCast_self]
  exact Ideal.ofBits_zero_f32

/-- The head of a scratch: its rows scaled by the inverse counts, through the weights, plus the bias row. -/
theorem poolHead_eq (s : FVec Ideal S64x64 .f32) (cinv : FVec Ideal S64x1 .f32) (wl : FVec Ideal S64x4 .f32)
    (bl : FVec Ideal S1x4 .f32) :
    k8_pay3 s cinv wl bl
      = addf (Host.dotGeneral (F := Ideal) (φ₁ := .f32) (φ₂ := .f32) (DotDims.plain 64 64 4) none
            (mulf s (broadcastInDim S64x64 ![0, 1] hgcol64 cinv)) wl)
          (broadcastInDim S64x4 ![0, 1] hgrow4 bl) := by
  funext j
  obtain ⟨g, o, rfl⟩ : ∃ (g : Fin 64) (o : Fin 4), j = ix2 g o := ⟨j 0, j 1, eq_ix2 (n0 := 64) (n1 := 4) j⟩
  unfold k8_pay3
  rw [shapeCast_self cinv, addf_apply, addf_apply]
  congr 1
  · show FloatOps.matmul _ none _ _ _ _ = FloatOps.dotGeneral _ none .single _ wl (ix2 g o)
    rw [Cert.LibBlocks.matmul_plain_apply _ poolHeadDims_eq, Cert.LibBlocks.dotGeneral_plain_apply _ rfl]
    refine Finset.sum_congr rfl fun k _ => ?_
    rw [truncf_apply, truncf_apply, Cert.Proof.Pure.blockScale_apply (n := 64) (N := 64) (b := 64) broadcasts_S64x1_S64x64 hgcol64
      s cinv s cinv g g k rfl rfl]
  · rw [Cert.LibDenseLayer.bias_block_entry, Cert.LibDenseLayer.bias_array_entry]

/-- For g below 64 a word's signed value is g exactly when the word is g's own. -/
theorem poolToInt_eq (v : BitVec 32) (g : Fin 64) : v.toInt = (g.val : Int) ↔ v = BitVec.ofNat 32 g.val := by
  have hg : ∀ g : Fin 64, (BitVec.ofNat 32 g.val).toInt = (g.val : Int) := by decide
  exact ⟨fun h => BitVec.eq_of_toInt_eq (h.trans (hg g).symm), fun h => by rw [h, hg g]⟩

/-- Row e's share of the pooled sum at (g, f): feature f of the row if the row belongs to graph g, else zero. -/
def poolTerm (idx : IVec S100000x1 32) (upd : Vec Ideal S100000x64 .f32) (g f : Fin 64) : Fin 100000 → EReal :=
  fun e => (if idx (ix2 e (0 : Fin 1)) = BitVec.ofNat 32 g.val then (1 : EReal) else 0) * upd (ix2 e f)

theorem pool_rows : 20 * 5000 = 100000 := by norm_num

/-- Adding block t's rows turns the total over the first t blocks into the total over the first t + 1. -/
theorem poolStep_block (idx : IVec S100000x1 32) (upd : Vec Ideal S100000x64 .f32)
    (b : Vec Ideal S5000x1 .i32) (h : Vec Ideal S5000x64 .f32) (s : Vec Ideal S64x64 .f32) (g f : Fin 64)
    (t : ℕ) (ht : t < 20)
    (hb : ∀ r : Fin 5000, b (ix2 r (0 : Fin 1))
      = idx (ix2 ⟨5000 * t + r.val, Cert.LibBlockSum.block_lt pool_rows ht r.isLt⟩ (0 : Fin 1)))
    (hh : ∀ r : Fin 5000, h (ix2 r f) = upd (ix2 ⟨5000 * t + r.val, Cert.LibBlockSum.block_lt pool_rows ht r.isLt⟩ f))
    (hs : s (ix2 g f) = Cert.LibBlockSum.blockAcc pool_rows (poolTerm idx upd g f) t) :
    k8_pay2 b h s (ix2 g f) = Cert.LibBlockSum.blockAcc pool_rows (poolTerm idx upd g f) (t + 1) := by
  unfold k8_pay2
  rw [shapeCast_self, addf_apply, Cert.LibBlockSum.blockAcc_succ' pool_rows _ ht, hs]
  congr 1
  show FloatOps.matmul _ none _ _ _ _ = _
  rw [Cert.LibOneHot.matmul_rows_apply _ poolDims_eq]
  refine Finset.sum_congr rfl fun r _ => ?_
  rw [truncf_apply, truncf_apply, Cert.LibOneHot.oneHot_apply, shapeCast_self, hb r, hh r]
  rfl

/-- The total over all 20 blocks is the entry of the whole-array segment sum. -/
theorem poolAcc_last (idx : IVec S100000x1 32) (upd : Vec Ideal S100000x64 .f32) (g f : Fin 64) :
    Cert.LibBlockSum.blockAcc pool_rows (poolTerm idx upd g f) 20
      = Host.scatterAdd (F := Ideal) (Cert.LibRows2.rowScatterDims2 64 100000 64 wf8)
        (broadcastInDim S64x64 ![] hgz64 (constant S_ .f32 0x00000000#32)) idx upd (ix2 g f) := by
  rw [Cert.LibBlockSum.blockAcc_last]
  symm
  show Ideal.hostScatterAdd _ _ idx upd (ix2 g f) = _
  rw [Cert.LibRows2.rowScatterAdd2_apply_of _ rfl,
    broadcastInDim_apply ![] hgz64 (constant (F := Ideal) S_ .f32 0x00000000#32) (ix2 g f) ix0 (fun a => a.elim0),
    show (constant (F := Ideal) S_ .f32 0x00000000#32) ix0 = (0 : EReal) from Ideal.ofBits_zero_f32, zero_add, Finset.sum_filter]
  refine Finset.sum_congr rfl fun e _ => ?_
  show (if (idx (ix2 e ⟨0, Nat.one_pos⟩)).toInt = (g.val : Int) then upd (ix2 e f) else 0)
    = (if idx (ix2 e ⟨0, Nat.one_pos⟩) = BitVec.ofNat 32 g.val then (1 : EReal) else 0) * upd (ix2 e f)
  by_cases h : idx (ix2 e ⟨0, Nat.one_pos⟩) = BitVec.ofNat 32 g.val
  · rw [if_pos ((poolToInt_eq _ g).2 h), if_pos h, one_mul]
  · rw [if_neg (fun h' => h ((poolToInt_eq _ g).1 h')), if_neg h, zero_mul]

end Cert.KernelIdeal.Hand

end
-- ==== Proof.KI.Val8.lean ====
import proofs.«135318_j56487409877354_1_alg».proof.Proof.KI.Reg8Defs
import proofs.«135318_j56487409877354_1_alg».proof.Proof.KI.Val8Pure
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Windows 0 and 1 step one row block per point; windows 2 to 5 keep block index zero. -/
theorem idx_facts8 : ∀ t : Fin cfg8.N, (win8_0.index t (0 : Fin 2) = t.val ∧ win8_0.index t (1 : Fin 2) = 0)
    ∧ (win8_1.index t (0 : Fin 2) = t.val ∧ win8_1.index t (1 : Fin 2) = 0)
    ∧ (∀ a, win8_2.index t a = 0) ∧ (∀ a, win8_3.index t a = 0) ∧ (∀ a, win8_4.index t a = 0) ∧ (∀ a, win8_5.index t a = 0) :=
  (by decide +kernel : ∀ t : Fin grid8.N, _)

/-- Block t of the graph indices starts at row 5000 t. -/
theorem read8_0 (c : Dev nD) (t : Fin cfg8.N) (r : Fin 5000) :
    (iblk8 (F := Ideal) V c 0 t : Vec Ideal S5000x1 .i32) (ix2 r (0 : Fin 1))
      = (V c main_v150 : IVec S100000x1 32)
          (ix2 ⟨5000 * t.val + r.val, Cert.LibBlockSum.block_lt pool_rows (lt_of_lt_of_eq t.isLt N_8) r.isLt⟩ (0 : Fin 1)) := by
  show V c main_v150 (((cfg8.win 0).blk t).view.emb (ix2 r (0 : Fin 1))) = _
  congr 1
  obtain ⟨⟨e0, e1⟩, -⟩ := idx_facts8 t
  funext a; apply Fin.ext
  match a with
  | ⟨0, _⟩ => show win8_0.index t (0 : Fin 2) * 5000 + 1 * r.val = 5000 * t.val + r.val; omega
  | ⟨1, _⟩ => show win8_0.index t (1 : Fin 2) * 1 + 1 * 0 = 0; omega

/-- Block t of the features starts at row 5000 t. -/
theorem read8_1 (c : Dev nD) (t : Fin cfg8.N) (r : Fin 5000) (f : Fin 64) :
    (iblk8 (F := Ideal) V c 1 t : Vec Ideal S5000x64 .f32) (ix2 r f)
      = (V c main_v140 : Vec Ideal S100000x64 .f32)
          (ix2 ⟨5000 * t.val + r.val, Cert.LibBlockSum.block_lt pool_rows (lt_of_lt_of_eq t.isLt N_8) r.isLt⟩ f) := by
  show V c main_v140 (((cfg8.win 1).blk t).view.emb (ix2 r f)) = _
  congr 1
  obtain ⟨-, ⟨e0, e1⟩, -⟩ := idx_facts8 t
  funext a; apply Fin.ext
  match a with
  | ⟨0, _⟩ => show win8_1.index t (0 : Fin 2) * 5000 + 1 * r.val = 5000 * t.val + r.val; omega
  | ⟨1, _⟩ => show win8_1.index t (1 : Fin 2) * 64 + 1 * f.val = f.val; omega

/-- A window whose block index stays zero hands over its whole array. -/
theorem read8_2 (c : Dev nD) (t : Fin cfg8.N) : (iblk8 (F := Ideal) V c 2 t : Vec Ideal S64x1 .f32) = V c main_v149 := by
  funext j
  show V c main_v149 (((cfg8.win 2).blk t).view.emb j) = V c main_v149 j
  congr 1; funext a; apply Fin.ext
  exact win8_2.rect_emb_val_of_index_zero t a ((idx_facts8 t).2.2.1 a) j

theorem read8_3 (c : Dev nD) (t : Fin cfg8.N) : (iblk8 (F := Ideal) V c 3 t : Vec Ideal S64x4 .f32) = V c main_arg11 := by
  funext j
  show V c main_arg11 (((cfg8.win 3).blk t).view.emb j) = V c main_arg11 j
  congr 1; funext a; apply Fin.ext
  exact win8_3.rect_emb_val_of_index_zero t a ((idx_facts8 t).2.2.2.1 a) j

theorem read8_4 (c : Dev nD) (t : Fin cfg8.N) : (iblk8 (F := Ideal) V c 4 t : Vec Ideal S1x4 .f32) = V c main_v151 := by
  funext j
  show V c main_v151 (((cfg8.win 4).blk t).view.emb j) = V c main_v151 j
  congr 1; funext a; apply Fin.ext
  exact win8_4.rect_emb_val_of_index_zero t a ((idx_facts8 t).2.2.2.2.1 a) j

/-- By induction on the point: the accumulator's entry is the pooled total over the blocks seen so far. -/
theorem acc8_entry (c : Dev nD) (g f : Fin 64) : ∀ (n : ℕ) (h : n < cfg8.N),
    acc8 (F := Ideal) V c n h (ix2 g f)
      = Cert.LibBlockSum.blockAcc pool_rows (poolTerm (V c main_v150) (V c main_v140) g f) (n + 1)
  | 0, h => poolStep_block (V c main_v150) (V c main_v140) _ _ _ g f 0 (by norm_num)
      (fun r => read8_0 V c ⟨0, h⟩ r) (fun r => read8_1 V c ⟨0, h⟩ r f) (poolZero_apply g f)
  | n + 1, h => poolStep_block (V c main_v150) (V c main_v140) _ _ _ g f (n + 1) (lt_of_lt_of_eq h N_8)
      (fun r => read8_0 V c ⟨n + 1, h⟩ r) (fun r => read8_1 V c ⟨n + 1, h⟩ r f)
      (acc8_entry c g f n (Nat.lt_of_succ_lt h))

/-- At the last point every row has been seen. -/
theorem acc8_last (c : Dev nD) :
    acc8 (F := Ideal) V c 19 (by decide)
      = Host.scatterAdd (F := Ideal) (Cert.LibRows2.rowScatterDims2 64 100000 64 wf8)
          (broadcastInDim S64x64 ![] hgz64 (constant S_ .f32 0x00000000#32))
          (V c main_v150 : IVec S100000x1 32) (V c main_v140 : Vec Ideal S100000x64 .f32) := by
  funext j
  rw [eq_ix2 (n0 := 64) (n1 := 64) j]
  exact (acc8_entry V c (j 0) (j 1) 19 (by decide)).trans (poolAcc_last (V c main_v150) (V c main_v140) (j 0) (j 1))

/-- The output's single block covers every index, -/
theorem mem_blk8_5 (t : Fin cfg8.N) (i : S64x4.Idx) : i ∈ ((cfg8.win 5).blk t).view.set := by
  show i ∈ ((View.whole main_v152).slice (win8_5.rect t)).set
  rw [View.set_slice_whole, Rect.mem_set_unit]
  intro a
  match a with
  | ⟨0, _⟩ =>
    show win8_5.index t (0 : Fin 2) * 64 ≤ (i 0).val ∧ (i 0).val < win8_5.index t (0 : Fin 2) * 64 + 64
    have := idx2_lt0 (n0 := 64) (n1 := 4) i; have := (idx_facts8 t).2.2.2.2.2 (0 : Fin 2); omega
  | ⟨1, _⟩ =>
    show win8_5.index t (1 : Fin 2) * 4 ≤ (i 1).val ∧ (i 1).val < win8_5.index t (1 : Fin 2) * 4 + 4
    have := idx2_lt1 (n0 := 64) (n1 := 4) i; have := (idx_facts8 t).2.2.2.2.2 (1 : Fin 2); omega

/-- and sits in the array at the same index. -/
theorem flushed8_5_eq (c : Dev nD) (t : Fin cfg8.N) :
    (dat8 (F := Ideal) V c).flushed 5 t = ((cfg8.win 5).blk t).view.read (Elt Ideal) (out8_5 V c) := by
  funext j
  show out8_5 V c ((cfg8.win 5).xinj (grid8.coords t) j) = out8_5 V c (((cfg8.win 5).blk t).view.emb j)
  congr 1; funext a; apply Fin.ext
  exact (win8_5.rect_emb_val_of_index_zero t a ((idx_facts8 t).2.2.2.2.2 a) j).symm

theorem final8 (c : Dev nD) :
    ((dat8 (F := Ideal) V c).arrAt 5 cfg8.N : Vec Ideal S64x4 .f32) =
      addf (Host.dotGeneral (F := Ideal) (φ₁ := .f32) (φ₂ := .f32) (DotDims.plain 64 64 4) none
          (mulf (Host.scatterAdd (F := Ideal) (Cert.LibRows2.rowScatterDims2 64 100000 64 wf8)
              (broadcastInDim S64x64 ![] hgz64 (constant S_ .f32 0x00000000#32))
              (V c main_v150 : IVec S100000x1 32) (V c main_v140 : Vec Ideal S100000x64 .f32))
            (broadcastInDim S64x64 ![0, 1] hgcol64 (V c main_v149 : FVec Ideal S64x1 .f32)))
          (V c main_arg11 : FVec Ideal S64x4 .f32))
        (broadcastInDim S64x4 ![0, 1] hgrow4 (V c main_v151 : FVec Ideal S1x4 .f32)) := by
  rw [(dat8 (F := Ideal) V c).arrAt_eq_of_cover 5 (out8_5 V c) (fun t _ => flushed8_5_eq V c t)
    (fun i => ⟨⟨19, by decide⟩, (flush8_5 _).2 rfl, mem_blk8_5 _ i⟩)]
  unfold out8_5
  rw [poolHead_eq, acc8_last, read8_2, read8_3, read8_4]

end Cert.KernelIdeal.Hand

end
-- ==== Proof.KI.Bridge.lean ====
import proofs.«135318_j56487409877354_1_alg».proof.Proof.KI.Run
import proofs.«135318_j56487409877354_1_alg».proof.Proof.KI.HostVals
import proofs.«135318_j56487409877354_1_alg».proof.Proof.KI.KSpec
import proofs.«135318_j56487409877354_1_alg».proof.Proof.KI.Val0
import proofs.«135318_j56487409877354_1_alg».proof.Proof.KI.Val1
import proofs.«135318_j56487409877354_1_alg».proof.Proof.KI.Val2
import proofs.«135318_j56487409877354_1_alg».proof.Proof.KI.Val3
import proofs.«135318_j56487409877354_1_alg».proof.Proof.KI.Val4
import proofs.«135318_j56487409877354_1_alg».proof.Proof.KI.Val5
import proofs.«135318_j56487409877354_1_alg».proof.Proof.KI.Val6
import proofs.«135318_j56487409877354_1_alg».proof.Proof.KI.Val7
import proofs.«135318_j56487409877354_1_alg».proof.Proof.KI.Val8

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

abbrev aX : FVec Ideal S100000x8 .f32 := m ((c : Thread nD τ).loc main_arg0)
abbrev aE : IVec S2x1600000 32 := m ((c : Thread nD τ).loc main_arg1)
abbrev aBt : IVec S100000 32 := m ((c : Thread nD τ).loc main_arg2)
abbrev aW1 : FVec Ideal S8x8 .f32 := m ((c : Thread nD τ).loc main_arg3)
abbrev aB1 : FVec Ideal S8 .f32 := m ((c : Thread nD τ).loc main_arg4)
abbrev aW2 : FVec Ideal S8x16 .f32 := m ((c : Thread nD τ).loc main_arg5)
abbrev aB2 : FVec Ideal S16 .f32 := m ((c : Thread nD τ).loc main_arg6)
abbrev aW3 : FVec Ideal S16x32 .f32 := m ((c : Thread nD τ).loc main_arg7)
abbrev aB3 : FVec Ideal S32 .f32 := m ((c : Thread nD τ).loc main_arg8)
abbrev aW4 : FVec Ideal S32x64 .f32 := m ((c : Thread nD τ).loc main_arg9)
abbrev aB4 : FVec Ideal S64 .f32 := m ((c : Thread nD τ).loc main_arg10)
abbrev aWl : FVec Ideal S64x4 .f32 := m ((c : Thread nD τ).loc main_arg11)
abbrev aBl : FVec Ideal S4 .f32 := m ((c : Thread nD τ).loc main_arg12)

abbrev Kept (b : Ref sig .tc) : Prop :=
  (b ∉ hostOps1_W ∧ b ∉ hostOps3_W ∧ b ∉ hostOps5_W ∧ b ∉ hostOps7_W ∧ b ∉ hostOps8_W) ∧ b ≠ main_v13 ∧ b ≠ main_v44 ∧ b ≠ main_v45
    ∧ b ≠ main_v76 ∧ b ≠ main_v77 ∧ b ≠ main_v108 ∧ b ≠ main_v109 ∧ b ≠ main_v140

abbrev Untouched (b : Ref sig .tc) : Prop := Kept b ∧ b ∉ hostOps0_W

variable {b : Ref sig .tc}

theorem from1_2 (h : Kept b) : P2 m ρ c (Proc.devRef .tc b) = P1 m ρ c (Proc.devRef .tc b) := P2_keep m ρ c b h.2.1
theorem from1_3 (h : Kept b) : P3 m ρ c (Proc.devRef .tc b) = P1 m ρ c (Proc.devRef .tc b) := (host1_keep (P2 m ρ c) b h.1.1).trans (from1_2 m ρ c h)
theorem from1_4 (h : Kept b) : P4 m ρ c (Proc.devRef .tc b) = P1 m ρ c (Proc.devRef .tc b) := (P4_keep m ρ c b h.2.2.1).trans (from1_3 m ρ c h)
theorem from1_5 (h : Kept b) : P5 m ρ c (Proc.devRef .tc b) = P1 m ρ c (Proc.devRef .tc b) := (P5_keep m ρ c b h.2.2.2.1).trans (from1_4 m ρ c h)
theorem from1_6 (h : Kept b) : P6 m ρ c (Proc.devRef .tc b) = P1 m ρ c (Proc.devRef .tc b) := (host3_keep (P5 m ρ c) b h.1.2.1).trans (from1_5 m ρ c h)
theorem from1_7 (h : Kept b) : P7 m ρ c (Proc.devRef .tc b) = P1 m ρ c (Proc.devRef .tc b) := (P7_keep m ρ c b h.2.2.2.2.1).trans (from1_6 m ρ c h)
theorem from1_8 (h : Kept b) : P8 m ρ c (Proc.devRef .tc b) = P1 m ρ c (Proc.devRef .tc b) := (P8_keep m ρ c b h.2.2.2.2.2.1).trans (from1_7 m ρ c h)
theorem from1_9 (h : Kept b) : P9 m ρ c (Proc.devRef .tc b) = P1 m ρ c (Proc.devRef .tc b) := (host5_keep (P8 m ρ c) b h.1.2.2.1).trans (from1_8 m ρ c h)
theorem from1_10 (h : Kept b) : P10 m ρ c (Proc.devRef .tc b) = P1 m ρ c (Proc.devRef .tc b) := (P10_keep m ρ c b h.2.2.2.2.2.2.1).trans (from1_9 m ρ c h)
theorem from1_11 (h : Kept b) : P11 m ρ c (Proc.devRef .tc b) = P1 m ρ c (Proc.devRef .tc b) := (P11_keep m ρ c b h.2.2.2.2.2.2.2.1).trans (from1_10 m ρ c h)
theorem from1_12 (h : Kept b) : P12 m ρ c (Proc.devRef .tc b) = P1 m ρ c (Proc.devRef .tc b) := (host7_keep (P11 m ρ c) b h.1.2.2.2.1).trans (from1_11 m ρ c h)
theorem from1_13 (h : Kept b) : P13 m ρ c (Proc.devRef .tc b) = P1 m ρ c (Proc.devRef .tc b) := (P13_keep m ρ c b h.2.2.2.2.2.2.2.2).trans (from1_12 m ρ c h)
theorem from1_14 (h : Kept b) : P14 m ρ c (Proc.devRef .tc b) = P1 m ρ c (Proc.devRef .tc b) := (host8_keep (P13 m ρ c) b h.1.2.2.2.2).trans (from1_13 m ρ c h)

theorem at1 (h : Untouched b) : P1 m ρ c (Proc.devRef .tc b) = m ((c : Thread nD τ).loc b) := (host0_keep (P0 m ρ c) b h.2).trans rfl
theorem at2 (h : Untouched b) : P2 m ρ c (Proc.devRef .tc b) = m ((c : Thread nD τ).loc b) := (from1_2 m ρ c h.1).trans (at1 m ρ c h)
theorem at4 (h : Untouched b) : P4 m ρ c (Proc.devRef .tc b) = m ((c : Thread nD τ).loc b) := (from1_4 m ρ c h.1).trans (at1 m ρ c h)
theorem at5 (h : Untouched b) : P5 m ρ c (Proc.devRef .tc b) = m ((c : Thread nD τ).loc b) := (from1_5 m ρ c h.1).trans (at1 m ρ c h)
theorem at7 (h : Untouched b) : P7 m ρ c (Proc.devRef .tc b) = m ((c : Thread nD τ).loc b) := (from1_7 m ρ c h.1).trans (at1 m ρ c h)
theorem at8 (h : Untouched b) : P8 m ρ c (Proc.devRef .tc b) = m ((c : Thread nD τ).loc b) := (from1_8 m ρ c h.1).trans (at1 m ρ c h)
theorem at10 (h : Untouched b) : P10 m ρ c (Proc.devRef .tc b) = m ((c : Thread nD τ).loc b) := (from1_10 m ρ c h.1).trans (at1 m ρ c h)
theorem at11 (h : Untouched b) : P11 m ρ c (Proc.devRef .tc b) = m ((c : Thread nD τ).loc b) := (from1_11 m ρ c h.1).trans (at1 m ρ c h)
theorem at13 (h : Untouched b) : P13 m ρ c (Proc.devRef .tc b) = m ((c : Thread nD τ).loc b) := (from1_13 m ρ c h.1).trans (at1 m ρ c h)
theorem at14 (h : Untouched b) : P14 m ρ c (Proc.devRef .tc b) = m ((c : Thread nD τ).loc b) := (from1_14 m ρ c h.1).trans (at1 m ρ c h)

theorem e1_v1 : P1 m ρ c (Proc.devRef .tc main_v1) = tSrc (aE m c) := host0_v1 (F := Ideal) (P0 m ρ c)
theorem e1_v3 : P1 m ρ c (Proc.devRef .tc main_v3) = tDst (aE m c) := host0_v3 (F := Ideal) (P0 m ρ c)
theorem e1_v10 : P1 m ρ c (Proc.devRef .tc main_v10) = tDisq (aE m c) := host0_v10 (F := Ideal) (P0 m ρ c)
theorem e1_v12 : P1 m ρ c (Proc.devRef .tc main_v12) = kDinv (F := Ideal) (tDst (aE m c)) := host0_v12 (F := Ideal) (P0 m ρ c)

theorem s2 : P2 m ρ c (Proc.devRef .tc main_v13) = tHw1 (aX m c) (aW1 m c) :=
  ((P2_arr m ρ c 2).trans (final0 (VV (P1 m ρ)) c)).trans (by
    rewrite [show VV (P1 m ρ) c main_arg0 = _ from at1 m ρ c (b := main_arg0) (by decide),
      show VV (P1 m ρ) c main_arg3 = _ from at1 m ρ c (b := main_arg3) (by decide)]; rfl)

theorem s4 : P4 m ρ c (Proc.devRef .tc main_v44) = tH1 (aX m c) (aE m c) (aW1 m c) (aB1 m c) :=
  ((P4_arr m ρ c 4).trans (final1 (VV (P3 m ρ)) c)).trans (by
    rewrite [show VV (P3 m ρ) c main_v41 = _ from host1_v41 (F := Ideal) (P2 m ρ c),
      show VV (P3 m ρ) c main_v13 = _ from host1_keep (P2 m ρ c) main_v13 (by decide),
      show VV (P3 m ρ) c main_v42 = _ from host1_v42 (F := Ideal) (P2 m ρ c),
      show VV (P3 m ρ) c main_v43 = _ from host1_v43 (F := Ideal) (P2 m ρ c),
      (from1_2 m ρ c (by decide)).trans (e1_v1 m ρ c), (from1_2 m ρ c (by decide)).trans (e1_v3 m ρ c),
      (from1_2 m ρ c (by decide)).trans (e1_v10 m ρ c), (from1_2 m ρ c (by decide)).trans (e1_v12 m ρ c),
      s2 m ρ c, at2 m ρ c (b := main_arg4) (by decide)]; rfl)

theorem s5 : P5 m ρ c (Proc.devRef .tc main_v45) = tHw2 (aX m c) (aE m c) (aW1 m c) (aB1 m c) (aW2 m c) :=
  ((P5_arr m ρ c 2).trans (final2 (VV (P4 m ρ)) c)).trans (by
    rewrite [show VV (P4 m ρ) c main_v44 = _ from s4 m ρ c,
      show VV (P4 m ρ) c main_arg5 = _ from at4 m ρ c (b := main_arg5) (by decide)]; rfl)

theorem s7 : P7 m ρ c (Proc.devRef .tc main_v76) = tH2 (aX m c) (aE m c) (aW1 m c) (aB1 m c) (aW2 m c) (aB2 m c) :=
  ((P7_arr m ρ c 4).trans (final3 (VV (P6 m ρ)) c)).trans (by
    rewrite [show VV (P6 m ρ) c main_v73 = _ from host3_v73 (F := Ideal) (P5 m ρ c),
      show VV (P6 m ρ) c main_v45 = _ from host3_keep (P5 m ρ c) main_v45 (by decide),
      show VV (P6 m ρ) c main_v74 = _ from host3_v74 (F := Ideal) (P5 m ρ c),
      show VV (P6 m ρ) c main_v75 = _ from host3_v75 (F := Ideal) (P5 m ρ c),
      (from1_5 m ρ c (by decide)).trans (e1_v1 m ρ c), (from1_5 m ρ c (by decide)).trans (e1_v3 m ρ c),
      (from1_5 m ρ c (by decide)).trans (e1_v10 m ρ c), (from1_5 m ρ c (by decide)).trans (e1_v12 m ρ c),
      s5 m ρ c, at5 m ρ c (b := main_arg6) (by decide)]; rfl)

theorem s8 : P8 m ρ c (Proc.devRef .tc main_v77) = tHw3 (aX m c) (aE m c) (aW1 m c) (aB1 m c) (aW2 m c) (aB2 m c) (aW3 m c) :=
  ((P8_arr m ρ c 2).trans (final4 (VV (P7 m ρ)) c)).trans (by
    rewrite [show VV (P7 m ρ) c main_v76 = _ from s7 m ρ c,
      show VV (P7 m ρ) c main_arg7 = _ from at7 m ρ c (b := main_arg7) (by decide)]; rfl)

theorem s10 : P10 m ρ c (Proc.devRef .tc main_v108) = tH3 (aX m c) (aE m c) (aW1 m c) (aB1 m c) (aW2 m c) (aB2 m c) (aW3 m c) (aB3 m c) :=
  ((P10_arr m ρ c 4).trans (final5 (VV (P9 m ρ)) c)).trans (by
    rewrite [show VV (P9 m ρ) c main_v105 = _ from host5_v105 (F := Ideal) (P8 m ρ c),
      show VV (P9 m ρ) c main_v77 = _ from host5_keep (P8 m ρ c) main_v77 (by decide),
      show VV (P9 m ρ) c main_v106 = _ from host5_v106 (F := Ideal) (P8 m ρ c),
      show VV (P9 m ρ) c main_v107 = _ from host5_v107 (F := Ideal) (P8 m ρ c),
      (from1_8 m ρ c (by decide)).trans (e1_v1 m ρ c), (from1_8 m ρ c (by decide)).trans (e1_v3 m ρ c),
      (from1_8 m ρ c (by decide)).trans (e1_v10 m ρ c), (from1_8 m ρ c (by decide)).trans (e1_v12 m ρ c),
      s8 m ρ c, at8 m ρ c (b := main_arg8) (by decide)]; rfl)

theorem s11 : P11 m ρ c (Proc.devRef .tc main_v109) = tHw4 (aX m c) (aE m c) (aW1 m c) (aB1 m c) (aW2 m c) (aB2 m c) (aW3 m c) (aB3 m c) (aW4 m c) :=
  ((P11_arr m ρ c 2).trans (final6 (VV (P10 m ρ)) c)).trans (by
    rewrite [show VV (P10 m ρ) c main_v108 = _ from s10 m ρ c,
      show VV (P10 m ρ) c main_arg9 = _ from at10 m ρ c (b := main_arg9) (by decide)]; rfl)

theorem s13 : P13 m ρ c (Proc.devRef .tc main_v140) = tH4 (aX m c) (aE m c) (aW1 m c) (aB1 m c) (aW2 m c) (aB2 m c) (aW3 m c) (aB3 m c) (aW4 m c) (aB4 m c) :=
  ((P13_arr m ρ c 4).trans (final7 (VV (P12 m ρ)) c)).trans (by
    rewrite [show VV (P12 m ρ) c main_v137 = _ from host7_v137 (F := Ideal) (P11 m ρ c),
      show VV (P12 m ρ) c main_v109 = _ from host7_keep (P11 m ρ c) main_v109 (by decide),
      show VV (P12 m ρ) c main_v138 = _ from host7_v138 (F := Ideal) (P11 m ρ c),
      show VV (P12 m ρ) c main_v139 = _ from host7_v139 (F := Ideal) (P11 m ρ c),
      (from1_11 m ρ c (by decide)).trans (e1_v1 m ρ c), (from1_11 m ρ c (by decide)).trans (e1_v3 m ρ c),
      (from1_11 m ρ c (by decide)).trans (e1_v10 m ρ c), (from1_11 m ρ c (by decide)).trans (e1_v12 m ρ c),
      s11 m ρ c, at11 m ρ c (b := main_arg10) (by decide)]; rfl)

theorem kernel_result :
    ((dat8 (F := Ideal) (VV (P14 m ρ)) c).arrAt 5 cfg8.N : FVec Ideal S64x4 .f32)
      = kRes (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) :=
  (final8 (VV (P14 m ρ)) c).trans (by
    rewrite [show VV (P14 m ρ) c main_v150 = _ from host8_v150 (F := Ideal) (P13 m ρ c),
      show VV (P14 m ρ) c main_v140 = _ from host8_keep (P13 m ρ c) main_v140 (by decide),
      show VV (P14 m ρ) c main_v149 = _ from host8_v149 (F := Ideal) (P13 m ρ c),
      show VV (P14 m ρ) c main_arg11 = _ from at14 m ρ c (b := main_arg11) (by decide),
      show VV (P14 m ρ) c main_v151 = _ from host8_v151 (F := Ideal) (P13 m ρ c),
      s13 m ρ c, at13 m ρ c (b := main_arg2) (by decide), at13 m ρ c (b := main_arg12) (by decide)]; rfl)

end Cert.KernelIdeal.Hand

end
-- ==== Proof.LibLayout.lean ====
import Idealize.ShloMosaic.Lib.Pipeline.Value
import Idealize.ShloMosaic.Lib.ValueIdx

namespace Cert.Proof.Layout

open Idealize.ShloMosaic Idealize.ShloMosaic.ValueIdx

variable {α : Type}

theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.BridgeRef.lean ====
import proofs.«135318_j56487409877354_1_alg».proof.Proof.Gen.ReferenceIdeal.Run
import proofs.«135318_j56487409877354_1_alg».proof.Proof.KI.KSpec
import proofs.«135318_j56487409877354_1_alg».proof.Proof.LibLayout
import Idealize.ShloMosaic.Lib.IdealHost

noncomputable section

namespace Cert.Bridge

open Idealize.ShloMosaic Idealize.ShloMosaic.ValueIdx Idealize.SL.Sem
open Cert.KernelIdeal.Hand Cert.Proof.Layout

theorem ones_apply {T : Shape} (h : (⟨0, ![]⟩ : Shape).BroadcastsInDim T ![]) (j : T.Idx) :
    broadcastInDim T ![] h (constant (F := Ideal) ⟨0, ![]⟩ .f32 0x3F800000#32) j = (1 : EReal) := by
  rw [broadcastInDim_scalar_apply, constant_apply]; exact Ideal.ofBits_one_f32

theorem max_one_ne_zero (a : EReal) : max a 1 ≠ 0 := by
  intro e
  have h : (1 : EReal) ≤ max a 1 := le_max_right _ _
  rw [e] at h
  exact absurd h (by simp)

theorem div_col_eq_mul_recip {n m : Nat} (S : FVec Ideal ⟨2, ![n, m]⟩ .f32) (M ones : FVec Ideal ⟨1, ![n]⟩ .f32)
    (h1 h1' : (⟨1, ![n]⟩ : Shape).BroadcastsInDim ⟨2, ![n, 1]⟩ ![0])
    (h2 h2' : (⟨2, ![n, 1]⟩ : Shape).BroadcastsInDim ⟨2, ![n, m]⟩ ![0, 1])
    (hone : ∀ i, ones i = (1 : EReal)) (hM : ∀ i, M i ≠ (0 : EReal)) :
    Host.divf S (broadcastInDim ⟨2, ![n, m]⟩ ![0, 1] h2 (broadcastInDim ⟨2, ![n, 1]⟩ ![0] h1 M))
      = mulf S (broadcastInDim ⟨2, ![n, m]⟩ ![0, 1] h2' (broadcastInDim ⟨2, ![n, 1]⟩ ![0] h1' (Host.divf ones M))) := by
  funext j
  show Ideal.div (S j) (M _) = S j * Ideal.div (ones _) (M _)
  rw [hone, Ideal.mul_one_div (hM _)]

variable (V0 : Valuation Cert.ReferenceIdeal.τ Cert.ReferenceIdeal.sig (Elt Ideal))

abbrev a0 : FVec Ideal Cert.KernelIdeal.S100000x8 .f32 := V0 (Proc.devRef .tc Cert.ReferenceIdeal.main_arg0)
abbrev a1 : IVec Cert.KernelIdeal.S2x1600000 32 := V0 (Proc.devRef .tc Cert.ReferenceIdeal.main_arg1)
abbrev a2 : IVec Cert.KernelIdeal.S100000 32 := V0 (Proc.devRef .tc Cert.ReferenceIdeal.main_arg2)
abbrev a3 : FVec Ideal Cert.KernelIdeal.S8x8 .f32 := V0 (Proc.devRef .tc Cert.ReferenceIdeal.main_arg3)
abbrev a4 : FVec Ideal Cert.KernelIdeal.S8 .f32 := V0 (Proc.devRef .tc Cert.ReferenceIdeal.main_arg4)
abbrev a5 : FVec Ideal Cert.KernelIdeal.S8x16 .f32 := V0 (Proc.devRef .tc Cert.ReferenceIdeal.main_arg5)
abbrev a6 : FVec Ideal Cert.KernelIdeal.S16 .f32 := V0 (Proc.devRef .tc Cert.ReferenceIdeal.main_arg6)
abbrev a7 : FVec Ideal Cert.KernelIdeal.S16x32 .f32 := V0 (Proc.devRef .tc Cert.ReferenceIdeal.main_arg7)
abbrev a8 : FVec Ideal Cert.KernelIdeal.S32 .f32 := V0 (Proc.devRef .tc Cert.ReferenceIdeal.main_arg8)
abbrev a9 : FVec Ideal Cert.KernelIdeal.S32x64 .f32 := V0 (Proc.devRef .tc Cert.ReferenceIdeal.main_arg9)
abbrev a10 : FVec Ideal Cert.KernelIdeal.S64 .f32 := V0 (Proc.devRef .tc Cert.ReferenceIdeal.main_arg10)
abbrev a11 : FVec Ideal Cert.KernelIdeal.S64x4 .f32 := V0 (Proc.devRef .tc Cert.ReferenceIdeal.main_arg11)
abbrev a12 : FVec Ideal Cert.KernelIdeal.S4 .f32 := V0 (Proc.devRef .tc Cert.ReferenceIdeal.main_arg12)

section Layers
open Cert.ReferenceIdeal.Value
open Cert.KernelIdeal
open Cert.KernelIdeal.Facts₀ Cert.KernelIdeal.Facts

theorem col_eq {α : Type} {n : Nat} (d : (⟨1, ![n]⟩ : Shape).Idx → α)
    (hd : (⟨1, ![n]⟩ : Shape).BroadcastsInDim ⟨2, ![n, 1]⟩ ![0]) (h : (⟨1, ![n]⟩ : Shape).ShapeCasts ⟨2, ![n, 1]⟩) :
    broadcastInDim (⟨2, ![n, 1]⟩ : Shape) ![0] hd d = shapeCast ⟨2, ![n, 1]⟩ d h :=
  (reshape_col_eq_broadcastInDim d h hd).symm

theorem row_eq {α : Type} {n : Nat} (b : (⟨1, ![n]⟩ : Shape).Idx → α)
    (hd : (⟨1, ![n]⟩ : Shape).BroadcastsInDim ⟨2, ![1, n]⟩ ![1]) (h : (⟨1, ![n]⟩ : Shape).ShapeCasts ⟨2, ![1, n]⟩) :
    broadcastInDim (⟨2, ![1, n]⟩ : Shape) ![1] hd b = shapeCast ⟨2, ![1, n]⟩ b h :=
  (reshape_row_eq_broadcastInDim b h hd).symm

theorem ref_v1 : res_main_v1 V0 = tSrc (a1 V0) := rfl
theorem ref_v3 : res_main_v3 V0 = tDst (a1 V0) := rfl
theorem ref_v9 : res_main_v9 V0 = kDeg (F := Ideal) (tDst (a1 V0)) := by
  unfold res_main_v9; rw [ref_v3]; rfl
theorem ref_v10 : res_main_v10 V0 = tDisq (a1 V0) := by
  unfold res_main_v10; rw [ref_v9]; rfl
theorem ref_v12 : res_main_v12 V0 = kDinv (F := Ideal) (tDst (a1 V0)) := by
  unfold res_main_v12; rw [ref_v9]; rfl
theorem ref_v13 : res_main_v13 V0 = tHw1 (a0 V0) (a3 V0) := rfl

theorem ref_v50 : res_main_v50 V0 = tHw2 (a0 V0) (a1 V0) (a3 V0) (a4 V0) (a5 V0) := by
  unfold res_main_v50
  rw [ref_v1, ref_v3, ref_v10, ref_v12, ref_v13,
    col_eq (n := 100000) (kDinv (F := Ideal) (tDst (a1 V0))) _ shapeCasts_S100000_S100000x1,
    row_eq (n := 8) (a4 V0) _ shapeCasts_S8_S1x8]
  rfl

theorem ref_v87 : res_main_v87 V0 = tHw3 (a0 V0) (a1 V0) (a3 V0) (a4 V0) (a5 V0) (a6 V0) (a7 V0) := by
  unfold res_main_v87
  rw [ref_v1, ref_v3, ref_v10, ref_v12, ref_v50,
    col_eq (n := 100000) (kDinv (F := Ideal) (tDst (a1 V0))) _ shapeCasts_S100000_S100000x1,
    row_eq (n := 16) (a6 V0) _ shapeCasts_S16_S1x16]
  rfl

theorem ref_v124 : res_main_v124 V0 = tHw4 (a0 V0) (a1 V0) (a3 V0) (a4 V0) (a5 V0) (a6 V0) (a7 V0) (a8 V0) (a9 V0) := by
  unfold res_main_v124
  rw [ref_v1, ref_v3, ref_v10, ref_v12, ref_v87,
    col_eq (n := 100000) (kDinv (F := Ideal) (tDst (a1 V0))) _ shapeCasts_S100000_S100000x1,
    row_eq (n := 32) (a8 V0) _ shapeCasts_S32_S1x32]
  rfl

theorem gcol1 : (⟨1, ![64]⟩ : Shape).BroadcastsInDim ⟨2, ![64, 1]⟩ ![0] := by decide

theorem counts_ne_zero (cnt : FVec Ideal S64 .f32) (i : S64.Idx) :
    maximumf cnt (broadcastInDim S64 ![] bcast_S_S64 (constant (F := Ideal) S_ .f32 0x3F800000#32)) i ≠ (0 : EReal) := by
  show max (cnt i) (broadcastInDim S64 ![] bcast_S_S64 (constant (F := Ideal) S_ .f32 0x3F800000#32) i) ≠ 0
  rw [ones_apply bcast_S_S64]; exact max_one_ne_zero _

theorem ref_result :
    Cert.ReferenceIdeal.Value.val4 V0 (Proc.devRef .tc Cert.ReferenceIdeal.main_v175)
      = kRes (a0 V0) (a1 V0) (a2 V0) (a3 V0) (a4 V0) (a5 V0) (a6 V0) (a7 V0) (a8 V0) (a9 V0) (a10 V0) (a11 V0) (a12 V0) := by
  refine (val4_main_v175 V0).trans ?_
  unfold kRes tH4
  rw [ref_v1, ref_v3, ref_v10, ref_v12, ref_v124,
    col_eq (n := 100000) (kDinv (F := Ideal) (tDst (a1 V0))) _ shapeCasts_S100000_S100000x1,
    row_eq (n := 64) (a10 V0) _ shapeCasts_S64_S1x64,
    row_eq (n := 4) (a12 V0) _ shapeCasts_S4_S1x4,
    ← col_eq (n := 100000) (a2 V0) bcast_S100000_S100000x1_0 shapeCasts_S100000_S100000x1,
    div_col_eq_mul_recip (n := 64) (m := 64) _ _
    (broadcastInDim S64 ![] bcast_S_S64 (constant (F := Ideal) S_ .f32 0x3F800000#32)) _ gcol1 _ kgcol
    (fun i => ones_apply bcast_S_S64 i) (fun i => counts_ne_zero _ i),
    col_eq (n := 64) _ gcol1 shapeCasts_S64_S64x1]
  rfl

end Layers

end Cert.Bridge
-- ==== Proof.lean ====
import proofs.«135318_j56487409877354_1_alg».proof.Defs
import proofs.«135318_j56487409877354_1_alg».proof.Proof.Gen.Kernel
import proofs.«135318_j56487409877354_1_alg».proof.Proof.Gen.KernelIdeal
import proofs.«135318_j56487409877354_1_alg».proof.Proof.Gen.ReferenceIdeal
import proofs.«135318_j56487409877354_1_alg».proof.Proof.Gen.Pre_finite_inputs
import proofs.«135318_j56487409877354_1_alg».proof.Proof.Gen.ReferenceIdeal.Run
import proofs.«135318_j56487409877354_1_alg».proof.Proof.K.Run
import proofs.«135318_j56487409877354_1_alg».proof.Proof.KI.Run
import proofs.«135318_j56487409877354_1_alg».proof.Proof.KI.Bridge
import proofs.«135318_j56487409877354_1_alg».proof.Proof.BridgeRef
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => (Cert.KernelIdeal.Hand.dat8 (F := Ideal) (Cert.KernelIdeal.Hand.VV (Cert.KernelIdeal.Hand.P14 m ρ)) c).arrAt 5 Cert.KernelIdeal.cfg8.N,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Value.val4_main_v175 (StableHlo.launchContents m' c)).symm.trans (Cert.Bridge.ref_result (StableHlo.launchContents m' c))).trans ?_
  refine Eq.trans ?_ (Cert.KernelIdeal.Hand.kernel_result m ρ c).symm
  obtain ⟨h0, h1, h2, h3, h4, h5, h6, h7, h8, h9, h10, h11, h12⟩ := hagree c
  congr 1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
